-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x64x128 : Shape := ⟨3, ![512, 64, 128]⟩
abbrev S512x128x128 : Shape := ⟨3, ![512, 128, 128]⟩
abbrev S512x192x128 : Shape := ⟨3, ![512, 192, 128]⟩
abbrev S512x256x128 : Shape := ⟨3, ![512, 256, 128]⟩
abbrev S512x320x128 : Shape := ⟨3, ![512, 320, 128]⟩
abbrev S512x384x128 : Shape := ⟨3, ![512, 384, 128]⟩
abbrev S512x448x128 : Shape := ⟨3, ![512, 448, 128]⟩
abbrev S512x512x128 : Shape := ⟨3, ![512, 512, 128]⟩
abbrev S_ : Shape := ⟨0, ![]⟩

class Facts : Prop where
  bcast_S_S512x64x128 : S_.BroadcastsInDim S512x64x128 (![] : Fin 0 → Fin S512x64x128.rank)
  reducesTo_S512x64x128_S_d0_1_2 : S512x64x128.ReducesTo [0, 1, 2] S_
  h_S_ : 0 < S_.numel
  bcast_S_S512x128x128 : S_.BroadcastsInDim S512x128x128 (![] : Fin 0 → Fin S512x128x128.rank)
  reducesTo_S512x128x128_S_d0_1_2 : S512x128x128.ReducesTo [0, 1, 2] S_
  bcast_S_S512x192x128 : S_.BroadcastsInDim S512x192x128 (![] : Fin 0 → Fin S512x192x128.rank)
  reducesTo_S512x192x128_S_d0_1_2 : S512x192x128.ReducesTo [0, 1, 2] S_
  bcast_S_S512x256x128 : S_.BroadcastsInDim S512x256x128 (![] : Fin 0 → Fin S512x256x128.rank)
  reducesTo_S512x256x128_S_d0_1_2 : S512x256x128.ReducesTo [0, 1, 2] S_
  bcast_S_S512x320x128 : S_.BroadcastsInDim S512x320x128 (![] : Fin 0 → Fin S512x320x128.rank)
  reducesTo_S512x320x128_S_d0_1_2 : S512x320x128.ReducesTo [0, 1, 2] S_
  bcast_S_S512x384x128 : S_.BroadcastsInDim S512x384x128 (![] : Fin 0 → Fin S512x384x128.rank)
  reducesTo_S512x384x128_S_d0_1_2 : S512x384x128.ReducesTo [0, 1, 2] S_
  bcast_S_S512x448x128 : S_.BroadcastsInDim S512x448x128 (![] : Fin 0 → Fin S512x448x128.rank)
  reducesTo_S512x448x128_S_d0_1_2 : S512x448x128.ReducesTo [0, 1, 2] S_
  bcast_S_S512x512x128 : S_.BroadcastsInDim S512x512x128 (![] : Fin 0 → Fin S512x512x128.rank)
  reducesTo_S512x512x128_S_d0_1_2 : S512x512x128.ReducesTo [0, 1, 2] S_

variable [Facts]

def fn_part2 {F : FTy → Type} [FloatOps F] (main_arg7 : FVec F S512x512x128 .f32) (main_v33 : IVec S_ 1) : IVec S_ 1 :=
  let main_v34 : FVec F S512x512x128 .f32 := Host.absf main_arg7
  let main_cst_12 : FVec F S_ .f32 := constant S_ .f32 0x7F800000#32
  let main_v35 : FVec F S512x512x128 .f32 := broadcastInDim S512x512x128 ![] bcast_S_S512x512x128 main_cst_12
  let main_v36 : IVec S512x512x128 1 := cmpf .olt main_v34 main_v35
  let main_c_13 : IVec S_ 1 := constantI S_ 1 1#1
  let main_v37 : IVec S_ 1 := (fun x v => Host.reduce IntOp.andi x v reducesTo_S512x512x128_S_d0_1_2 h_S_) main_v36 main_c_13
  let main_v38 : IVec S_ 1 := andi main_v33 main_v37
  main_v38

def fn_part1 {F : FTy → Type} [FloatOps F] (main_arg4 : FVec F S512x320x128 .f32) (main_arg5 : FVec F S512x384x128 .f32) (main_arg6 : FVec F S512x448x128 .f32) (main_arg7 : FVec F S512x512x128 .f32) (main_v13 : IVec S_ 1) (main_v16 : IVec S512x256x128 1) : IVec S_ 1 :=
  let main_c_5 : IVec S_ 1 := constantI S_ 1 1#1
  let main_v17 : IVec S_ 1 := (fun x v => Host.reduce IntOp.andi x v reducesTo_S512x256x128_S_d0_1_2 h_S_) main_v16 main_c_5
  let main_v18 : IVec S_ 1 := andi main_v13 main_v17
  let main_v19 : FVec F S512x320x128 .f32 := Host.absf main_arg4
  let main_cst_6 : FVec F S_ .f32 := constant S_ .f32 0x7F800000#32
  let main_v20 : FVec F S512x320x128 .f32 := broadcastInDim S512x320x128 ![] bcast_S_S512x320x128 main_cst_6
  let main_v21 : IVec S512x320x128 1 := cmpf .olt main_v19 main_v20
  let main_c_7 : IVec S_ 1 := constantI S_ 1 1#1
  let main_v22 : IVec S_ 1 := (fun x v => Host.reduce IntOp.andi x v reducesTo_S512x320x128_S_d0_1_2 h_S_) main_v21 main_c_7
  let main_v23 : IVec S_ 1 := andi main_v18 main_v22
  let main_v24 : FVec F S512x384x128 .f32 := Host.absf main_arg5
  let main_cst_8 : FVec F S_ .f32 := constant S_ .f32 0x7F800000#32
  let main_v25 : FVec F S512x384x128 .f32 := broadcastInDim S512x384x128 ![] bcast_S_S512x384x128 main_cst_8
  let main_v26 : IVec S512x384x128 1 := cmpf .olt main_v24 main_v25
  let main_c_9 : IVec S_ 1 := constantI S_ 1 1#1
  let main_v27 : IVec S_ 1 := (fun x v => Host.reduce IntOp.andi x v reducesTo_S512x384x128_S_d0_1_2 h_S_) main_v26 main_c_9
  let main_v28 : IVec S_ 1 := andi main_v23 main_v27
  let main_v29 : FVec F S512x448x128 .f32 := Host.absf main_arg6
  let main_cst_10 : FVec F S_ .f32 := constant S_ .f32 0x7F800000#32
  let main_v30 : FVec F S512x448x128 .f32 := broadcastInDim S512x448x128 ![] bcast_S_S512x448x128 main_cst_10
  let main_v31 : IVec S512x448x128 1 := cmpf .olt main_v29 main_v30
  let main_c_11 : IVec S_ 1 := constantI S_ 1 1#1
  let main_v32 : IVec S_ 1 := (fun x v => Host.reduce IntOp.andi x v reducesTo_S512x448x128_S_d0_1_2 h_S_) main_v31 main_c_11
  let main_v33 : IVec S_ 1 := andi main_v28 main_v32
  fn_part2 (F := F) main_arg7 main_v33

def fn {F : FTy → Type} [FloatOps F] (main_arg0 : FVec F S512x64x128 .f32) (main_arg1 : FVec F S512x128x128 .f32) (main_arg2 : FVec F S512x192x128 .f32) (main_arg3 : FVec F S512x256x128 .f32) (main_arg4 : FVec F S512x320x128 .f32) (main_arg5 : FVec F S512x384x128 .f32) (main_arg6 : FVec F S512x448x128 .f32) (main_arg7 : FVec F S512x512x128 .f32) : IVec S_ 1 :=
  let main_v0 : FVec F S512x64x128 .f32 := Host.absf main_arg0
  let main_cst : FVec F S_ .f32 := constant S_ .f32 0x7F800000#32
  let main_v1 : FVec F S512x64x128 .f32 := broadcastInDim S512x64x128 ![] bcast_S_S512x64x128 main_cst
  let main_v2 : IVec S512x64x128 1 := cmpf .olt main_v0 main_v1
  let main_c : IVec S_ 1 := constantI S_ 1 1#1
  let main_v3 : IVec S_ 1 := (fun x v => Host.reduce IntOp.andi x v reducesTo_S512x64x128_S_d0_1_2 h_S_) main_v2 main_c
  let main_v4 : FVec F S512x128x128 .f32 := Host.absf main_arg1
  let main_cst_0 : FVec F S_ .f32 := constant S_ .f32 0x7F800000#32
  let main_v5 : FVec F S512x128x128 .f32 := broadcastInDim S512x128x128 ![] bcast_S_S512x128x128 main_cst_0
  let main_v6 : IVec S512x128x128 1 := cmpf .olt main_v4 main_v5
  let main_c_1 : IVec S_ 1 := constantI S_ 1 1#1
  let main_v7 : IVec S_ 1 := (fun x v => Host.reduce IntOp.andi x v reducesTo_S512x128x128_S_d0_1_2 h_S_) main_v6 main_c_1
  let main_v8 : IVec S_ 1 := andi main_v3 main_v7
  let main_v9 : FVec F S512x192x128 .f32 := Host.absf main_arg2
  let main_cst_2 : FVec F S_ .f32 := constant S_ .f32 0x7F800000#32
  let main_v10 : FVec F S512x192x128 .f32 := broadcastInDim S512x192x128 ![] bcast_S_S512x192x128 main_cst_2
  let main_v11 : IVec S512x192x128 1 := cmpf .olt main_v9 main_v10
  let main_c_3 : IVec S_ 1 := constantI S_ 1 1#1
  let main_v12 : IVec S_ 1 := (fun x v => Host.reduce IntOp.andi x v reducesTo_S512x192x128_S_d0_1_2 h_S_) main_v11 main_c_3
  let main_v13 : IVec S_ 1 := andi main_v8 main_v12
  let main_v14 : FVec F S512x256x128 .f32 := Host.absf main_arg3
  let main_cst_4 : FVec F S_ .f32 := constant S_ .f32 0x7F800000#32
  let main_v15 : FVec F S512x256x128 .f32 := broadcastInDim S512x256x128 ![] bcast_S_S512x256x128 main_cst_4
  let main_v16 : IVec S512x256x128 1 := cmpf .olt main_v14 main_v15
  fn_part1 (F := F) main_arg4 main_arg5 main_arg6 main_arg7 main_v13 main_v16
-- ==== Kernel.lean ====
abbrev S512x64x128 : Shape := ⟨3, ![512, 64, 128]⟩
abbrev S512x128x128 : Shape := ⟨3, ![512, 128, 128]⟩
abbrev S512x192x128 : Shape := ⟨3, ![512, 192, 128]⟩
abbrev S512x256x128 : Shape := ⟨3, ![512, 256, 128]⟩
abbrev S512x320x128 : Shape := ⟨3, ![512, 320, 128]⟩
abbrev S512x384x128 : Shape := ⟨3, ![512, 384, 128]⟩
abbrev S512x448x128 : Shape := ⟨3, ![512, 448, 128]⟩
abbrev S512x512x128 : Shape := ⟨3, ![512, 512, 128]⟩
abbrev S512x1x128 : Shape := ⟨3, ![512, 1, 128]⟩
abbrev S128x64x128 : Shape := ⟨3, ![128, 64, 128]⟩
abbrev S128x1x128 : Shape := ⟨3, ![128, 1, 128]⟩
abbrev S128x128 : Shape := ⟨2, ![128, 128]⟩
abbrev S512x8x128 : Shape := ⟨3, ![512, 8, 128]⟩

abbrev nBuf : Space → Nat
  | .hbm => 17
  | .vmem => 32
  | .smem => 0
  | _ => 0

abbrev bufTy : (tb : Table) → Fin (tcTables nBuf tb) → BufTy
  | .hbm, ⟨0, _⟩ => ⟨S512x64x128, .f32⟩
  | .hbm, ⟨1, _⟩ => ⟨S512x128x128, .f32⟩
  | .hbm, ⟨2, _⟩ => ⟨S512x192x128, .f32⟩
  | .hbm, ⟨3, _⟩ => ⟨S512x256x128, .f32⟩
  | .hbm, ⟨4, _⟩ => ⟨S512x320x128, .f32⟩
  | .hbm, ⟨5, _⟩ => ⟨S512x384x128, .f32⟩
  | .hbm, ⟨6, _⟩ => ⟨S512x448x128, .f32⟩
  | .hbm, ⟨7, _⟩ => ⟨S512x512x128, .f32⟩
  | .hbm, ⟨8, _⟩ => ⟨S512x1x128, .f32⟩
  | .hbm, ⟨9, _⟩ => ⟨S512x1x128, .f32⟩
  | .hbm, ⟨10, _⟩ => ⟨S512x1x128, .f32⟩
  | .hbm, ⟨11, _⟩ => ⟨S512x1x128, .f32⟩
  | .hbm, ⟨12, _⟩ => ⟨S512x1x128, .f32⟩
  | .hbm, ⟨13, _⟩ => ⟨S512x1x128, .f32⟩
  | .hbm, ⟨14, _⟩ => ⟨S512x1x128, .f32⟩
  | .hbm, ⟨15, _⟩ => ⟨S512x1x128, .f32⟩
  | .hbm, ⟨16, _⟩ => ⟨S512x8x128, .f32⟩
  | .local _ .vmem, ⟨0, _⟩ => ⟨S128x64x128, .f32⟩
  | .local _ .vmem, ⟨1, _⟩ => ⟨S128x64x128, .f32⟩
  | .local _ .vmem, ⟨2, _⟩ => ⟨S128x1x128, .f32⟩
  | .local _ .vmem, ⟨3, _⟩ => ⟨S128x1x128, .f32⟩
  | .local _ .vmem, ⟨4, _⟩ => ⟨S128x64x128, .f32⟩
  | .local _ .vmem, ⟨5, _⟩ => ⟨S128x64x128, .f32⟩
  | .local _ .vmem, ⟨6, _⟩ => ⟨S128x1x128, .f32⟩
  | .local _ .vmem, ⟨7, _⟩ => ⟨S128x1x128, .f32⟩
  | .local _ .vmem, ⟨8, _⟩ => ⟨S128x64x128, .f32⟩
  | .local _ .vmem, ⟨9, _⟩ => ⟨S128x64x128, .f32⟩
  | .local _ .vmem, ⟨10, _⟩ => ⟨S128x1x128, .f32⟩
  | .local _ .vmem, ⟨11, _⟩ => ⟨S128x1x128, .f32⟩
  | .local _ .vmem, ⟨12, _⟩ => ⟨S128x64x128, .f32⟩
  | .local _ .vmem, ⟨13, _⟩ => ⟨S128x64x128, .f32⟩
  | .local _ .vmem, ⟨14, _⟩ => ⟨S128x1x128, .f32⟩
  | .local _ .vmem, ⟨15, _⟩ => ⟨S128x1x128, .f32⟩
  | .local _ .vmem, ⟨16, _⟩ => ⟨S128x64x128, .f32⟩
  | .local _ .vmem, ⟨17, _⟩ => ⟨S128x64x128, .f32⟩
  | .local _ .vmem, ⟨18, _⟩ => ⟨S128x1x128, .f32⟩
  | .local _ .vmem, ⟨19, _⟩ => ⟨S128x1x128, .f32⟩
  | .local _ .vmem, ⟨20, _⟩ => ⟨S128x64x128, .f32⟩
  | .local _ .vmem, ⟨21, _⟩ => ⟨S128x64x128, .f32⟩
  | .local _ .vmem, ⟨22, _⟩ => ⟨S128x1x128, .f32⟩
  | .local _ .vmem, ⟨23, _⟩ => ⟨S128x1x128, .f32⟩
  | .local _ .vmem, ⟨24, _⟩ => ⟨S128x64x128, .f32⟩
  | .local _ .vmem, ⟨25, _⟩ => ⟨S128x64x128, .f32⟩
  | .local _ .vmem, ⟨26, _⟩ => ⟨S128x1x128, .f32⟩
  | .local _ .vmem, ⟨27, _⟩ => ⟨S128x1x128, .f32⟩
  | .local _ .vmem, ⟨28, _⟩ => ⟨S128x64x128, .f32⟩
  | .local _ .vmem, ⟨29, _⟩ => ⟨S128x64x128, .f32⟩
  | .local _ .vmem, ⟨30, _⟩ => ⟨S128x1x128, .f32⟩
  | .local _ .vmem, ⟨31, _⟩ => ⟨S128x1x128, .f32⟩
  | _, _ => ⟨S512x64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc3_stg0_0 : Ref sig .tc := ⟨.vmem, 12, rfl⟩
abbrev cc3_stg0_1 : Ref sig .tc := ⟨.vmem, 13, rfl⟩
abbrev cc3_stg1_0 : Ref sig .tc := ⟨.vmem, 14, rfl⟩
abbrev cc3_stg1_1 : Ref sig .tc := ⟨.vmem, 15, rfl⟩
abbrev cc4_stg0_0 : Ref sig .tc := ⟨.vmem, 16, rfl⟩
abbrev cc4_stg0_1 : Ref sig .tc := ⟨.vmem, 17, rfl⟩
abbrev cc4_stg1_0 : Ref sig .tc := ⟨.vmem, 18, rfl⟩
abbrev cc4_stg1_1 : Ref sig .tc := ⟨.vmem, 19, rfl⟩
abbrev cc5_stg0_0 : Ref sig .tc := ⟨.vmem, 20, rfl⟩
abbrev cc5_stg0_1 : Ref sig .tc := ⟨.vmem, 21, rfl⟩
abbrev cc5_stg1_0 : Ref sig .tc := ⟨.vmem, 22, rfl⟩
abbrev cc5_stg1_1 : Ref sig .tc := ⟨.vmem, 23, rfl⟩
abbrev cc6_stg0_0 : Ref sig .tc := ⟨.vmem, 24, rfl⟩
abbrev cc6_stg0_1 : Ref sig .tc := ⟨.vmem, 25, rfl⟩
abbrev cc6_stg1_0 : Ref sig .tc := ⟨.vmem, 26, rfl⟩
abbrev cc6_stg1_1 : Ref sig .tc := ⟨.vmem, 27, rfl⟩
abbrev cc7_stg0_0 : Ref sig .tc := ⟨.vmem, 28, rfl⟩
abbrev cc7_stg0_1 : Ref sig .tc := ⟨.vmem, 29, rfl⟩
abbrev cc7_stg1_0 : Ref sig .tc := ⟨.vmem, 30, rfl⟩
abbrev cc7_stg1_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc2_sem0_0 : DmaSem sig := 8
abbrev cc2_sem0_1 : DmaSem sig := 9
abbrev cc2_sem1_0 : DmaSem sig := 10
abbrev cc2_sem1_1 : DmaSem sig := 11
abbrev cc3_sem0_0 : DmaSem sig := 12
abbrev cc3_sem0_1 : DmaSem sig := 13
abbrev cc3_sem1_0 : DmaSem sig := 14
abbrev cc3_sem1_1 : DmaSem sig := 15
abbrev cc4_sem0_0 : DmaSem sig := 16
abbrev cc4_sem0_1 : DmaSem sig := 17
abbrev cc4_sem1_0 : DmaSem sig := 18
abbrev cc4_sem1_1 : DmaSem sig := 19
abbrev cc5_sem0_0 : DmaSem sig := 20
abbrev cc5_sem0_1 : DmaSem sig := 21
abbrev cc5_sem1_0 : DmaSem sig := 22
abbrev cc5_sem1_1 : DmaSem sig := 23
abbrev cc6_sem0_0 : DmaSem sig := 24
abbrev cc6_sem0_1 : DmaSem sig := 25
abbrev cc6_sem1_0 : DmaSem sig := 26
abbrev cc6_sem1_1 : DmaSem sig := 27
abbrev cc7_sem0_0 : DmaSem sig := 28
abbrev cc7_sem0_1 : DmaSem sig := 29
abbrev cc7_sem1_0 : DmaSem sig := 30
abbrev cc7_sem1_1 : DmaSem sig := 31

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨2, ![4, 2], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S128x64x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S128x1x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev grid2 : Pipeline.Grid := ⟨2, ![4, 3], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S128x64x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S128x1x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev grid3 : Pipeline.Grid := ⟨2, ![4, 4], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S128x64x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S128x1x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev grid4 : Pipeline.Grid := ⟨2, ![4, 5], ![false, false]⟩

def cc4_transform_0 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc4_transform_1 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S128x64x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S128x1x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false]

abbrev grid5 : Pipeline.Grid := ⟨2, ![4, 6], ![false, false]⟩

def cc5_transform_0 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc5_transform_1 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage5_0 : Fin 2 → Memref sig .tc .vmem S128x64x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 2 → Memref sig .tc .vmem S128x1x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, false]

abbrev grid6 : Pipeline.Grid := ⟨2, ![4, 7], ![false, false]⟩

def cc6_transform_0 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc6_transform_1 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage6_0 : Fin 2 → Memref sig .tc .vmem S128x64x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, true]

abbrev stage6_1 : Fin 2 → Memref sig .tc .vmem S128x1x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true, false]

abbrev grid7 : Pipeline.Grid := ⟨2, ![4, 8], ![false, false]⟩

def cc7_transform_0 (i : grid7.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc7_transform_1 (i : grid7.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage7_0 : Fin 2 → Memref sig .tc .vmem S128x64x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, true]

abbrev stage7_1 : Fin 2 → Memref sig .tc .vmem S128x1x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true, false]

class Facts₀ : Prop where
  inb_S128x1x128_S128x1x128_0_0_0 : ∀ a, (![0, 0, 0] : Fin 3 → Nat) a + S128x1x128.size a ≤ S128x1x128.size a
  h_S128x1x128 : 0 < S128x1x128.numel
  shapeCasts_S128x1x128_S128x1x128 : S128x1x128.ShapeCasts S128x1x128
  inb_S128x64x128_S128x64x128_0_0_0 : ∀ a, (![0, 0, 0] : Fin 3 → Nat) a + S128x64x128.size a ≤ S128x64x128.size a
  h_S128x64x128 : 0 < S128x64x128.numel
  reduces_S128x64x128_S128x128 : S128x64x128.Reduces [1] S128x128
  shapeCasts_S128x128_S128x1x128 : S128x128.ShapeCasts S128x1x128
  concatenates_S512x1x128_S512x1x128_S512x1x128_S512x1x128_S512x1x128_S512x1x128_S512x1x128_S512x1x128_S512x8x128_d1 : Shape.Concatenates [S512x1x128, S512x1x128, S512x1x128, S512x1x128, S512x1x128, S512x1x128, S512x1x128, S512x1x128] S512x8x128 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x64x128.size a ≤ S512x64x128.size a
  hwx0_0 : ∀ i : grid0.Coords, EltTy.bits .f32 = 32 ∨ (Rect.block (s := S512x64x128) S128x64x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1x128.size a ≤ S512x1x128.size a
  hwx0_1 : ∀ i : grid0.Coords, EltTy.bits .f32 = 32 ∨ (Rect.block (s := S512x1x128) S128x1x128.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x64x128.size a ≤ S512x128x128.size a
  hwx1_0 : ∀ i : grid1.Coords, EltTy.bits .f32 = 32 ∨ (Rect.block (s := S512x128x128) S128x64x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x1x128.size a ≤ S512x1x128.size a
  hwx1_1 : ∀ i : grid1.Coords, EltTy.bits .f32 = 32 ∨ (Rect.block (s := S512x1x128) S128x1x128.size (cc1_transform_1 i) (hinb1_1 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S128x64x128.size a ≤ S512x192x128.size a
  hwx2_0 : ∀ i : grid2.Coords, EltTy.bits .f32 = 32 ∨ (Rect.block (s := S512x192x128) S128x64x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S128x1x128.size a ≤ S512x1x128.size a
  hwx2_1 : ∀ i : grid2.Coords, EltTy.bits .f32 = 32 ∨ (Rect.block (s := S512x1x128) S128x1x128.size (cc2_transform_1 i) (hinb2_1 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S128x64x128.size a ≤ S512x256x128.size a
  hwx3_0 : ∀ i : grid3.Coords, EltTy.bits .f32 = 32 ∨ (Rect.block (s := S512x256x128) S128x64x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S128x1x128.size a ≤ S512x1x128.size a
  hwx3_1 : ∀ i : grid3.Coords, EltTy.bits .f32 = 32 ∨ (Rect.block (s := S512x1x128) S128x1x128.size (cc3_transform_1 i) (hinb3_1 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S128x64x128.size a ≤ S512x320x128.size a
  hwx4_0 : ∀ i : grid4.Coords, EltTy.bits .f32 = 32 ∨ (Rect.block (s := S512x320x128) S128x64x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S128x1x128.size a ≤ S512x1x128.size a
  hwx4_1 : ∀ i : grid4.Coords, EltTy.bits .f32 = 32 ∨ (Rect.block (s := S512x1x128) S128x1x128.size (cc4_transform_1 i) (hinb4_1 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S128x64x128.size a ≤ S512x384x128.size a
  hwx5_0 : ∀ i : grid5.Coords, EltTy.bits .f32 = 32 ∨ (Rect.block (s := S512x384x128) S128x64x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S128x1x128.size a ≤ S512x1x128.size a
  hwx5_1 : ∀ i : grid5.Coords, EltTy.bits .f32 = 32 ∨ (Rect.block (s := S512x1x128) S128x1x128.size (cc5_transform_1 i) (hinb5_1 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S128x64x128.size a ≤ S512x448x128.size a
  hwx6_0 : ∀ i : grid6.Coords, EltTy.bits .f32 = 32 ∨ (Rect.block (s := S512x448x128) S128x64x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S128x1x128.size a ≤ S512x1x128.size a
  hwx6_1 : ∀ i : grid6.Coords, EltTy.bits .f32 = 32 ∨ (Rect.block (s := S512x1x128) S128x1x128.size (cc6_transform_1 i) (hinb6_1 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S128x64x128.size a ≤ S512x512x128.size a
  hwx7_0 : ∀ i : grid7.Coords, EltTy.bits .f32 = 32 ∨ (Rect.block (s := S512x512x128) S128x64x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S128x1x128.size a ≤ S512x1x128.size a
  hwx7_1 : ∀ i : grid7.Coords, EltTy.bits .f32 = 32 ∨ (Rect.block (s := S512x1x128) S128x1x128.size (cc7_transform_1 i) (hinb7_1 i)).WholeWords (EltTy.packing .f32)

variable [Facts₀]

abbrev win0_0 : Pipeline.Window sig grid0 :=
  Pipeline.Window.ofSpec (Memref.whole main_arg0) S128x64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x1x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg1) S128x64x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S128x1x128.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_arg2) S128x64x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S128x1x128.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

abbrev win3_0 : Pipeline.Window sig grid3 :=
  Pipeline.Window.ofSpec (Memref.whole main_arg3) S128x64x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v3) S128x1x128.size cc3_transform_1 reads3_1 true false 2 stage3_1 sem3_1
    hrank3 hreads3_1 hinb3_1 nbuf3_1 (Memref.isWhole_whole _) hwx3_1 hstage3_1

abbrev win3 : Fin 2 → Pipeline.Window sig grid3 := fun | 0 => win3_0 | 1 => win3_1 | ⟨_ + 2, h⟩ => absurd h (Nat.not_lt.2 (Nat.le_add_left _ _))
abbrev spec3 : Fin 2 → Pipeline.WinSpec sig grid3.rank := fun w => (win3 w).toWinSpec

abbrev win4_0 : Pipeline.Window sig grid4 :=
  Pipeline.Window.ofSpec (Memref.whole main_arg4) S128x64x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v4) S128x1x128.size cc4_transform_1 reads4_1 true false 2 stage4_1 sem4_1
    hrank4 hreads4_1 hinb4_1 nbuf4_1 (Memref.isWhole_whole _) hwx4_1 hstage4_1

abbrev win4 : Fin 2 → Pipeline.Window sig grid4 := fun | 0 => win4_0 | 1 => win4_1 | ⟨_ + 2, h⟩ => absurd h (Nat.not_lt.2 (Nat.le_add_left _ _))
abbrev spec4 : Fin 2 → Pipeline.WinSpec sig grid4.rank := fun w => (win4 w).toWinSpec

abbrev win5_0 : Pipeline.Window sig grid5 :=
  Pipeline.Window.ofSpec (Memref.whole main_arg5) S128x64x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v5) S128x1x128.size cc5_transform_1 reads5_1 true false 2 stage5_1 sem5_1
    hrank5 hreads5_1 hinb5_1 nbuf5_1 (Memref.isWhole_whole _) hwx5_1 hstage5_1

abbrev win5 : Fin 2 → Pipeline.Window sig grid5 := fun | 0 => win5_0 | 1 => win5_1 | ⟨_ + 2, h⟩ => absurd h (Nat.not_lt.2 (Nat.le_add_left _ _))
abbrev spec5 : Fin 2 → Pipeline.WinSpec sig grid5.rank := fun w => (win5 w).toWinSpec

abbrev win6_0 : Pipeline.Window sig grid6 :=
  Pipeline.Window.ofSpec (Memref.whole main_arg6) S128x64x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v6) S128x1x128.size cc6_transform_1 reads6_1 true false 2 stage6_1 sem6_1
    hrank6 hreads6_1 hinb6_1 nbuf6_1 (Memref.isWhole_whole _) hwx6_1 hstage6_1

abbrev win6 : Fin 2 → Pipeline.Window sig grid6 := fun | 0 => win6_0 | 1 => win6_1 | ⟨_ + 2, h⟩ => absurd h (Nat.not_lt.2 (Nat.le_add_left _ _))
abbrev spec6 : Fin 2 → Pipeline.WinSpec sig grid6.rank := fun w => (win6 w).toWinSpec

abbrev win7_0 : Pipeline.Window sig grid7 :=
  Pipeline.Window.ofSpec (Memref.whole main_arg7) S128x64x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v7) S128x1x128.size cc7_transform_1 reads7_1 true false 2 stage7_1 sem7_1
    hrank7 hreads7_1 hinb7_1 nbuf7_1 (Memref.isWhole_whole _) hwx7_1 hstage7_1

abbrev win7 : Fin 2 → Pipeline.Window sig grid7 := fun | 0 => win7_0 | 1 => win7_1 | ⟨_ + 2, h⟩ => absurd h (Nat.not_lt.2 (Nat.le_add_left _ _))
abbrev spec7 : Fin 2 → Pipeline.WinSpec sig grid7.rank := fun w => (win7 w).toWinSpec

class Facts : Prop extends Facts₀ where

variable [Facts]
-- ==== ReferenceIdeal.lean ====
abbrev S512x64x128 : Shape := ⟨3, ![512, 64, 128]⟩
abbrev S512x128x128 : Shape := ⟨3, ![512, 128, 128]⟩
abbrev S512x192x128 : Shape := ⟨3, ![512, 192, 128]⟩
abbrev S512x256x128 : Shape := ⟨3, ![512, 256, 128]⟩
abbrev S512x320x128 : Shape := ⟨3, ![512, 320, 128]⟩
abbrev S512x384x128 : Shape := ⟨3, ![512, 384, 128]⟩
abbrev S512x448x128 : Shape := ⟨3, ![512, 448, 128]⟩
abbrev S512x512x128 : Shape := ⟨3, ![512, 512, 128]⟩
abbrev S_ : Shape := ⟨0, ![]⟩
abbrev S512x128 : Shape := ⟨2, ![512, 128]⟩
abbrev S512x1x128 : Shape := ⟨3, ![512, 1, 128]⟩
abbrev S512x8x128 : Shape := ⟨3, ![512, 8, 128]⟩

abbrev nBuf : Space → Nat
  | .hbm => 33
  | .vmem => 0
  | .smem => 0
  | _ => 0

abbrev bufTy : (tb : Table) → Fin (tcTables nBuf tb) → BufTy
  | .hbm, ⟨0, _⟩ => ⟨S512x64x128, .f32⟩
  | .hbm, ⟨1, _⟩ => ⟨S512x128x128, .f32⟩
  | .hbm, ⟨2, _⟩ => ⟨S512x192x128, .f32⟩
  | .hbm, ⟨3, _⟩ => ⟨S512x256x128, .f32⟩
  | .hbm, ⟨4, _⟩ => ⟨S512x320x128, .f32⟩
  | .hbm, ⟨5, _⟩ => ⟨S512x384x128, .f32⟩
  | .hbm, ⟨6, _⟩ => ⟨S512x448x128, .f32⟩
  | .hbm, ⟨7, _⟩ => ⟨S512x512x128, .f32⟩
  | .hbm, ⟨8, _⟩ => ⟨S_, .f32⟩
  | .hbm, ⟨9, _⟩ => ⟨S512x128, .f32⟩
  | .hbm, ⟨10, _⟩ => ⟨S512x1x128, .f32⟩
  | .hbm, ⟨11, _⟩ => ⟨S_, .f32⟩
  | .hbm, ⟨12, _⟩ => ⟨S512x128, .f32⟩
  | .hbm, ⟨13, _⟩ => ⟨S512x1x128, .f32⟩
  | .hbm, ⟨14, _⟩ => ⟨S_, .f32⟩
  | .hbm, ⟨15, _⟩ => ⟨S512x128, .f32⟩
  | .hbm, ⟨16, _⟩ => ⟨S512x1x128, .f32⟩
  | .hbm, ⟨17, _⟩ => ⟨S_, .f32⟩
  | .hbm, ⟨18, _⟩ => ⟨S512x128, .f32⟩
  | .hbm, ⟨19, _⟩ => ⟨S512x1x128, .f32⟩
  | .hbm, ⟨20, _⟩ => ⟨S_, .f32⟩
  | .hbm, ⟨21, _⟩ => ⟨S512x128, .f32⟩
  | .hbm, ⟨22, _⟩ => ⟨S512x1x128, .f32⟩
  | .hbm, ⟨23, _⟩ => ⟨S_, .f32⟩
  | .hbm, ⟨24, _⟩ => ⟨S512x128, .f32⟩
  | .hbm, ⟨25, _⟩ => ⟨S512x1x128, .f32⟩
  | .hbm, ⟨26, _⟩ => ⟨S_, .f32⟩
  | .hbm, ⟨27, _⟩ => ⟨S512x128, .f32⟩
  | .hbm, ⟨28, _⟩ => ⟨S512x1x128, .f32⟩
  | .hbm, ⟨29, _⟩ => ⟨S_, .f32⟩
  | .hbm, ⟨30, _⟩ => ⟨S512x128, .f32⟩
  | .hbm, ⟨31, _⟩ => ⟨S512x1x128, .f32⟩
  | .hbm, ⟨32, _⟩ => ⟨S512x8x128, .f32⟩
  | _, _ => ⟨S512x64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_cst_2 : Ref sig .tc := ⟨.hbm, 17, rfl⟩
abbrev main_v6 : Ref sig .tc := ⟨.hbm, 18, rfl⟩
abbrev main_v7 : Ref sig .tc := ⟨.hbm, 19, rfl⟩
abbrev main_cst_3 : Ref sig .tc := ⟨.hbm, 20, rfl⟩
abbrev main_v8 : Ref sig .tc := ⟨.hbm, 21, rfl⟩
abbrev main_v9 : Ref sig .tc := ⟨.hbm, 22, rfl⟩
abbrev main_cst_4 : Ref sig .tc := ⟨.hbm, 23, rfl⟩
abbrev main_v10 : Ref sig .tc := ⟨.hbm, 24, rfl⟩
abbrev main_v11 : Ref sig .tc := ⟨.hbm, 25, rfl⟩
abbrev main_cst_5 : Ref sig .tc := ⟨.hbm, 26, rfl⟩
abbrev main_v12 : Ref sig .tc := ⟨.hbm, 27, rfl⟩
abbrev main_v13 : Ref sig .tc := ⟨.hbm, 28, rfl⟩
abbrev main_cst_6 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩

abbrev nD : Nat := 1
abbrev τ : Topo := Topo.v7x

variable {F : FTy → Type} [FloatOps F]

class Facts₀ : Prop where
  reducesTo_S512x64x128_S512x128_d1 : S512x64x128.ReducesTo [1] S512x128
  h_S_ : 0 < S_.numel
  bcast_S512x128_S512x1x128_0_2 : S512x128.BroadcastsInDim S512x1x128 (![0, 2] : Fin 2 → Fin S512x1x128.rank)
  reducesTo_S512x128x128_S512x128_d1 : S512x128x128.ReducesTo [1] S512x128
  reducesTo_S512x192x128_S512x128_d1 : S512x192x128.ReducesTo [1] S512x128
  reducesTo_S512x256x128_S512x128_d1 : S512x256x128.ReducesTo [1] S512x128
  reducesTo_S512x320x128_S512x128_d1 : S512x320x128.ReducesTo [1] S512x128
  reducesTo_S512x384x128_S512x128_d1 : S512x384x128.ReducesTo [1] S512x128
  reducesTo_S512x448x128_S512x128_d1 : S512x448x128.ReducesTo [1] S512x128
  reducesTo_S512x512x128_S512x128_d1 : S512x512x128.ReducesTo [1] S512x128
  concatenates_S512x1x128_S512x1x128_S512x1x128_S512x1x128_S512x1x128_S512x1x128_S512x1x128_S512x1x128_S512x8x128_d1 : Shape.Concatenates [S512x1x128, S512x1x128, S512x1x128, S512x1x128, S512x1x128, S512x1x128, S512x1x128, S512x1x128] S512x8x128 1

variable [Facts₀]

class Facts : Prop extends Facts₀ where

variable [Facts]
-- ==== Proof.K.Body.lean ====
import proofs.«131913_j48773648613703_1_alg».proof.Proof.Gen.Kernel.Launch
import proofs.«131913_j48773648613703_1_alg».proof.Proof.Gen.Kernel.Skeleton
import proofs.«131913_j48773648613703_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The body's branch condition: the sequence-tile coordinate l is zero. -/
abbrev resets (l : ℕ) : Prop := (Scalar.cmpi .ne (Scalar.extui (Scalar.cmpi .eq (BitVec.ofNat 32 l) 0#32)) 0#32) = 1#1

theorem hz3 : (![0, 0, 0] : Fin 3 → Nat) = fun _ => 0 := funext fun a => by fin_cases a <;> rfl

section Body

variable (c : Dev nD) (i : grid7.Coords) (a2 : Memref sig .tc .vmem S128x64x128 .f32) (h2 : a2.IsWhole)
  (a3 : Memref sig .tc .vmem S128x1x128 .f32) (h3 : a3.IsWhole) (x : Vec F S128x64x128 .f32)

def runA (hc : resets (i 1).val) :
    { L1 : List (View.Piece (Elt F) S128x1x128 .f32) //
      ∀ (E : Set ℕ) (K : PUnit → sProp 𝕄),
        iprop(owns (c : Thread nD τ) a2 fullShare x ∗ (∃ d, owns (c : Thread nD τ) a3 fullShare d)
            ∗ (iprop(owns (c : Thread nD τ) a2 fullShare x ∗ (∃ f, a3.view.loc (c : Thread nD τ) ↦[a3.view.set]{fullShare} a3.view.writes (Elt F) f L1)) -∗ K ⟨⟩))
          ⊢ wp frame (wpE (defs₀ (F := F)) Variants.none c none) E (cc7__sum_kernel i a2 h2 a3 h3) K } := by
  refine ⟨?_, fun E K => ?run⟩
  case run =>
    simp only [cc7__sum_kernel_eq_skeleton]; unfold cc7__sum_kernel_skel
    unfold owns
    iintro ⟨⟨%f0, %hf0, H0⟩, ⟨%d1, %f1, -, H1⟩, Hk⟩
    obtain rfl := h2.eq_unread hf0
    sl_exec (disch := first | exact hc)
    sl_step
    iapply Hk
    isplitl [H0]
    · iexists _; isplitr; · ipureintro; exact h2.read_unread _
      iexact H0
    iexists _; iexact H1

def runB (hc : ¬resets (i 1).val) (xo : Vec F S128x1x128 .f32) :
    { L1 : List (View.Piece (Elt F) S128x1x128 .f32) //
      ∀ (E : Set ℕ) (K : PUnit → sProp 𝕄),
        iprop(owns (c : Thread nD τ) a2 fullShare x ∗ owns (c : Thread nD τ) a3 fullShare xo
            ∗ (iprop(owns (c : Thread nD τ) a2 fullShare x ∗ (∃ f, a3.view.loc (c : Thread nD τ) ↦[a3.view.set]{fullShare} a3.view.writes (Elt F) f L1)) -∗ K ⟨⟩))
          ⊢ wp frame (wpE (defs₀ (F := F)) Variants.none c none) E (cc7__sum_kernel i a2 h2 a3 h3) K } := by
  refine ⟨?_, fun E K => ?run⟩
  case run =>
    simp only [cc7__sum_kernel_eq_skeleton]; unfold cc7__sum_kernel_skel
    unfold owns
    iintro ⟨⟨%f0, %hf0, H0⟩, ⟨%f1, %hf1, H1⟩, Hk⟩
    obtain rfl := h2.eq_unread hf0; obtain rfl := h3.eq_unread hf1
    sl_exec (disch := first | exact hc)
    sl_step
    iapply Hk
    isplitl [H0]
    · iexists _; isplitr; · ipureintro; exact h2.read_unread _
      iexact H0
    iexists _; iexact H1

/-- With the reset taken the stores amount to the update of the zero tile by x, -/
theorem readA (hc : resets (i 1).val) (f) :
    a3.view.read (Elt F) (a3.view.writes (Elt F) f (runA c i a2 h2 a3 h3 x hc).1) = k7_pay2 (k7_pay1 (F := F)) x := by
  rw [View.read_writes_eq_canon _ _ _ (View.cover_of_tiledL (runA c i a2 h2 a3 h3 x hc).1 S128x1x128.size (by sl_kernel_rfl))]
  unfold runA
  dsimp only
  sl_unfold_words
  rw [View.canon_cons_unit_zero (S := S128x1x128) hz3, View.readCov_unit_zero (S := S128x1x128) _ hz3]
  simp only [View.readAt_eq_ld, h2.read_unread, View.ld_unit_zero (S := S128x64x128) hz3]

/-- and without it to the update of the tile's contents xo by x. -/
theorem readB (hc : ¬resets (i 1).val) (xo : Vec F S128x1x128 .f32) (f) :
    a3.view.read (Elt F) (a3.view.writes (Elt F) f (runB c i a2 h2 a3 h3 x hc xo).1) = k7_pay2 xo x := by
  rw [View.read_writes_eq_canon _ _ _ (View.cover_of_tiledL (runB c i a2 h2 a3 h3 x hc xo).1 S128x1x128.size (by sl_kernel_rfl))]
  unfold runB
  dsimp only
  sl_unfold_words
  rw [View.canon_unit_zero hz3]
  simp only [View.readAt_eq_ld, h2.read_unread, h3.read_unread, View.ld_unit_zero (S := S128x1x128) hz3,
    View.ld_unit_zero (S := S128x64x128) hz3]

/-- The body where l = 0, beside resources P, Q it does not touch: the output tile ends at the update of the zero tile by x. -/
theorem step_resets {D0 D1 : Type} (P Q : sProp 𝕄) (hc : resets (i 1).val) (y : D1 → Vec F S128x1x128 .f32) :
    iprop(P ∗ Q ∗ (∃ _d : D0, owns (c : Thread nD τ) a2 fullShare x) ∗ (∃ d : D1, owns (c : Thread nD τ) a3 fullShare (y d)))
      ⊢ wp frame (wpE (defs₀ (F := F)) Variants.none c none) Set.univ (cc7__sum_kernel i a2 h2 a3 h3) (fun _ =>
          iprop(P ∗ Q ∗ owns (c : Thread nD τ) a2 fullShare x ∗ owns (c : Thread nD τ) a3 fullShare (k7_pay2 (k7_pay1 (F := F)) x))) := by
  iintro ⟨HP, HQ, ⟨%d0, H0⟩, ⟨%d1, H1⟩⟩
  iapply ((runA c i a2 h2 a3 h3 x hc).2 Set.univ _)
  isplitl [H0]; · iexact H0
  isplitl [H1]; · iexists _; iexact H1
  iintro ⟨H0, ⟨%e1, H1⟩⟩
  isplitl [HP]; · iexact HP
  isplitl [HQ]; · iexact HQ
  isplitl [H0]; · iexact H0
  unfold owns; iexists _; isplitr
  swap; · iexact H1
  ipureintro; exact readA c i a2 h2 a3 h3 x hc e1

/-- The body where l ≠ 0: the output tile goes from xo to the update of xo by x. -/
theorem step_adds {D0 D1 : Type} (P Q : sProp 𝕄) (hc : ¬resets (i 1).val) (xo : Vec F S128x1x128 .f32) :
    iprop(P ∗ Q ∗ (∃ _d : D0, owns (c : Thread nD τ) a2 fullShare x) ∗ (∃ _d : D1, owns (c : Thread nD τ) a3 fullShare xo))
      ⊢ wp frame (wpE (defs₀ (F := F)) Variants.none c none) Set.univ (cc7__sum_kernel i a2 h2 a3 h3) (fun _ =>
          iprop(P ∗ Q ∗ owns (c : Thread nD τ) a2 fullShare x ∗ owns (c : Thread nD τ) a3 fullShare (k7_pay2 xo x))) := by
  iintro ⟨HP, HQ, ⟨%d0, H0⟩, ⟨%d1, H1⟩⟩
  iapply ((runB c i a2 h2 a3 h3 x hc xo).2 Set.univ _)
  isplitl [H0]; · iexact H0
  isplitl [H1]; · iexact H1
  iintro ⟨H0, ⟨%e1, H1⟩⟩
  isplitl [HP]; · iexact HP
  isplitl [HQ]; · iexact HQ
  isplitl [H0]; · iexact H0
  unfold owns; iexists _; isplitr
  swap; · iexact H1
  ipureintro; exact readB c i a2 h2 a3 h3 x hc xo e1

end Body

/-- The running update over the input tiles x 0, x 1, …, started over at every multiple of L. -/
def acc (N L : ℕ) (x : Fin N → Vec F S128x64x128 .f32) : (n : ℕ) → n < N → Vec F S128x1x128 .f32
  | 0, hn => k7_pay2 (k7_pay1 (F := F)) (x ⟨0, hn⟩)
  | n + 1, hn =>
    if (n + 1) % L = 0 then k7_pay2 (k7_pay1 (F := F)) (x ⟨n + 1, hn⟩)
    else k7_pay2 (acc N L x n (Nat.lt_of_succ_lt hn)) (x ⟨n + 1, hn⟩)

theorem acc_resets {N L : ℕ} (x : Fin N → Vec F S128x64x128 .f32) (t : Fin N) (h0 : t.val % L = 0) :
    acc N L x t.val t.isLt = k7_pay2 (k7_pay1 (F := F)) (x t) := by
  obtain ⟨n, hn⟩ := t
  cases n with
  | zero => rfl
  | succ n => exact if_pos h0

theorem acc_adds {N L : ℕ} (x : Fin N → Vec F S128x64x128 .f32) (t : Fin N) (h0 : ¬t.val % L = 0) :
    acc N L x t.val t.isLt = k7_pay2 (acc N L x (t.val - 1) (Nat.lt_of_le_of_lt (Nat.sub_le _ _) t.isLt)) (x t) := by
  obtain ⟨n, hn⟩ := t
  cases n with
  | zero => exact absurd (Nat.zero_mod _) h0
  | succ n => exact if_neg h0

end Cert.Kernel.Frm

end
-- ==== Proof.K.Region0.lean ====
import proofs.«131913_j48773648613703_1_alg».proof.Proof.K.Body

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- A point of this grid as a point of the largest of the eight: the coordinates' values are kept. -/
def up0 (i : grid0.Coords) : grid7.Coords :=
  fun a => ⟨(i a).val, Nat.lt_of_lt_of_le (i a).isLt ((by decide : ∀ a, grid0.bound a ≤ grid7.bound a) a)⟩

set_option maxRecDepth 65536 in
theorem body0_eq (i : grid0.Coords) (a2 : Memref sig .tc .vmem S128x64x128 .f32) (h2 : a2.IsWhole)
    (a3 : Memref sig .tc .vmem S128x1x128 .f32) (h3 : a3.IsWhole) :
    cc0__sum_kernel (F := F) i a2 h2 a3 h3 = cc7__sum_kernel (up0 i) a2 h2 a3 h3 := rfl

/-- The input tile at point t. -/
def iblk0 (c : Dev nD) (t : Fin cfg0.N) : Vec F S128x64x128 .f32 :=
  ((cfg0.win 0).blk t).view.read (Elt F) (V c (Pipeline.arrRef spec0 0))

/-- The branch condition holds exactly at the multiples of L. -/
theorem hcond0 : ∀ t : Fin cfg0.N, resets (up0 (grid0.coords t) 1).val ↔ t.val % 1 = 0 :=
  (by decide +kernel : ∀ t : Fin grid0.N, resets (up0 (grid0.coords t) 1).val ↔ t.val % 1 = 0)

/-- The run's data: the input tiles, and the output tile after each point as the running update. -/
def dat0 (c : Dev nD) : Dat τ (Elt F) Unit ℕ (UR sig nD τ) ℕ cfg0 c where
  A w := V c (Pipeline.arrRef spec0 w)
  after w t := match w with
    | ⟨0, _⟩ => iblk0 V c t
    | ⟨1, _⟩ => acc cfg0.N 1 (iblk0 V c) t.val t.isLt
  Φ _ := Pipeline.ΦA spec0 c
  q _ := fullShare
  owed _ := 0

theorem after0_1 (c : Dev nD) (t : Fin cfg0.N) : (dat0 V c).after 1 t = acc cfg0.N 1 (iblk0 V c) t.val t.isLt := rfl

theorem before0_0 (c : Dev nD) (t : Fin cfg0.N) (d) : (dat0 V c).before 0 t d = iblk0 V c t :=
  ((dat0 V c).before_in_eq_fetched 0 rfl (fun _ => rfl) (fun _ _ _ => rfl) (fun _ => rfl) t d).trans rfl

/-- Off the multiples of L the output tile enters a point as the point before left it. -/
theorem before0_1 (c : Dev nD) (t : Fin cfg0.N) (h0 : ¬t.val % 1 = 0) (d) :
    (dat0 V c).before 1 t d = acc cfg0.N 1 (iblk0 V c) (t.val - 1) (Nat.lt_of_le_of_lt (Nat.sub_le _ _) t.isLt) := by
  have hN : t.val < 4 := lt_of_lt_of_eq t.isLt (show cfg0.N = 4 from N_0)
  first
  | exact absurd (Nat.mod_one _) h0
  | (rw [Dat.before_out_kept _ 1 rfl t (by omega) (Bool.eq_false_iff.mpr fun h => by have := (flush0_1 _).mp h; dsimp only at this; omega)
      (fun _ => rfl) (fun _ _ => rfl)]
     rfl)

theorem sound_body0 (c : Dev nD) (t : Fin cfg0.N) :
    iprop((dat0 V c).Φ t.castSucc ∗ (dat0 V c).owesAt () t.castSucc
      ∗ (∃ d, owns (c : Thread nD τ) (win0_0.stage (cfg0.slots t 0)) fullShare ((dat0 V c).before 0 t d))
      ∗ (∃ d, owns (c : Thread nD τ) (win0_1.stage (cfg0.slots t 1)) fullShare ((dat0 V c).before 1 t d)))
    ⊢ wp frame (wpE (defs₀ (F := F)) Variants.none c none) Set.univ (bodyAt0 t) (fun _ =>
      iprop((dat0 V c).Φ t.castSucc ∗ (dat0 V c).owesAt () t.castSucc
        ∗ owns (c : Thread nD τ) (win0_0.stage (cfg0.slots t 0)) fullShare (iblk0 V c t)
        ∗ owns (c : Thread nD τ) (win0_1.stage (cfg0.slots t 1)) fullShare (acc cfg0.N 1 (iblk0 V c) t.val t.isLt))) := by
  unfold bodyAt0
  simp only [before0_0]
  rw [body0_eq]
  by_cases h0 : t.val % 1 = 0
  · rw [acc_resets (iblk0 V c) t h0]
    exact step_resets c (up0 (grid0.coords t)) _ _ _ _ (iblk0 V c t) _ _ ((hcond0 t).mpr h0) _
  · rw [acc_adds (iblk0 V c) t h0]
    simp only [before0_1 V c t h0]
    exact step_adds c (up0 (grid0.coords t)) _ _ _ _ (iblk0 V c t) _ _ (fun h => h0 ((hcond0 t).mp h)) _

theorem body_obligation0 (c : Dev nD) : BodyObligation (dat0 (F := F) V c) (defs₀ (F := F)) Variants.none () Set.univ := fun t => by
  rw [bigSep_W0, bigSep_W0]
  exact sound_body0 V c t

end Cert.Kernel.Frm

end
-- ==== Proof.K.Region1.lean ====
import proofs.«131913_j48773648613703_1_alg».proof.Proof.K.Body

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- A point of this grid as a point of the largest of the eight: the coordinates' values are kept. -/
def up1 (i : grid1.Coords) : grid7.Coords :=
  fun a => ⟨(i a).val, Nat.lt_of_lt_of_le (i a).isLt ((by decide : ∀ a, grid1.bound a ≤ grid7.bound a) a)⟩

set_option maxRecDepth 65536 in
theorem body1_eq (i : grid1.Coords) (a2 : Memref sig .tc .vmem S128x64x128 .f32) (h2 : a2.IsWhole)
    (a3 : Memref sig .tc .vmem S128x1x128 .f32) (h3 : a3.IsWhole) :
    cc1__sum_kernel (F := F) i a2 h2 a3 h3 = cc7__sum_kernel (up1 i) a2 h2 a3 h3 := rfl

/-- The input tile at point t. -/
def iblk1 (c : Dev nD) (t : Fin cfg1.N) : Vec F S128x64x128 .f32 :=
  ((cfg1.win 0).blk t).view.read (Elt F) (V c (Pipeline.arrRef spec1 0))

/-- The branch condition holds exactly at the multiples of L. -/
theorem hcond1 : ∀ t : Fin cfg1.N, resets (up1 (grid1.coords t) 1).val ↔ t.val % 2 = 0 :=
  (by decide +kernel : ∀ t : Fin grid1.N, resets (up1 (grid1.coords t) 1).val ↔ t.val % 2 = 0)

/-- The run's data: the input tiles, and the output tile after each point as the running update. -/
def dat1 (c : Dev nD) : Dat τ (Elt F) Unit ℕ (UR sig nD τ) ℕ cfg1 c where
  A w := V c (Pipeline.arrRef spec1 w)
  after w t := match w with
    | ⟨0, _⟩ => iblk1 V c t
    | ⟨1, _⟩ => acc cfg1.N 2 (iblk1 V c) t.val t.isLt
  Φ _ := Pipeline.ΦA spec1 c
  q _ := fullShare
  owed _ := 0

theorem after1_1 (c : Dev nD) (t : Fin cfg1.N) : (dat1 V c).after 1 t = acc cfg1.N 2 (iblk1 V c) t.val t.isLt := rfl

theorem before1_0 (c : Dev nD) (t : Fin cfg1.N) (d) : (dat1 V c).before 0 t d = iblk1 V c t :=
  ((dat1 V c).before_in_eq_fetched 0 rfl (fun _ => rfl) (fun _ _ _ => rfl) (fun _ => rfl) t d).trans rfl

/-- Off the multiples of L the output tile enters a point as the point before left it. -/
theorem before1_1 (c : Dev nD) (t : Fin cfg1.N) (h0 : ¬t.val % 2 = 0) (d) :
    (dat1 V c).before 1 t d = acc cfg1.N 2 (iblk1 V c) (t.val - 1) (Nat.lt_of_le_of_lt (Nat.sub_le _ _) t.isLt) := by
  have hN : t.val < 8 := lt_of_lt_of_eq t.isLt (show cfg1.N = 8 from N_1)
  first
  | exact absurd (Nat.mod_one _) h0
  | (rw [Dat.before_out_kept _ 1 rfl t (by omega) (Bool.eq_false_iff.mpr fun h => by have := (flush1_1 _).mp h; dsimp only at this; omega)
      (fun _ => rfl) (fun _ _ => rfl)]
     rfl)

theorem sound_body1 (c : Dev nD) (t : Fin cfg1.N) :
    iprop((dat1 V c).Φ t.castSucc ∗ (dat1 V c).owesAt () t.castSucc
      ∗ (∃ d, owns (c : Thread nD τ) (win1_0.stage (cfg1.slots t 0)) fullShare ((dat1 V c).before 0 t d))
      ∗ (∃ d, owns (c : Thread nD τ) (win1_1.stage (cfg1.slots t 1)) fullShare ((dat1 V c).before 1 t d)))
    ⊢ wp frame (wpE (defs₀ (F := F)) Variants.none c none) Set.univ (bodyAt1 t) (fun _ =>
      iprop((dat1 V c).Φ t.castSucc ∗ (dat1 V c).owesAt () t.castSucc
        ∗ owns (c : Thread nD τ) (win1_0.stage (cfg1.slots t 0)) fullShare (iblk1 V c t)
        ∗ owns (c : Thread nD τ) (win1_1.stage (cfg1.slots t 1)) fullShare (acc cfg1.N 2 (iblk1 V c) t.val t.isLt))) := by
  unfold bodyAt1
  simp only [before1_0]
  rw [body1_eq]
  by_cases h0 : t.val % 2 = 0
  · rw [acc_resets (iblk1 V c) t h0]
    exact step_resets c (up1 (grid1.coords t)) _ _ _ _ (iblk1 V c t) _ _ ((hcond1 t).mpr h0) _
  · rw [acc_adds (iblk1 V c) t h0]
    simp only [before1_1 V c t h0]
    exact step_adds c (up1 (grid1.coords t)) _ _ _ _ (iblk1 V c t) _ _ (fun h => h0 ((hcond1 t).mp h)) _

theorem body_obligation1 (c : Dev nD) : BodyObligation (dat1 (F := F) V c) (defs₀ (F := F)) Variants.none () Set.univ := fun t => by
  rw [bigSep_W1, bigSep_W1]
  exact sound_body1 V c t

end Cert.Kernel.Frm

end
-- ==== Proof.K.Region2.lean ====
import proofs.«131913_j48773648613703_1_alg».proof.Proof.K.Body

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- A point of this grid as a point of the largest of the eight: the coordinates' values are kept. -/
def up2 (i : grid2.Coords) : grid7.Coords :=
  fun a => ⟨(i a).val, Nat.lt_of_lt_of_le (i a).isLt ((by decide : ∀ a, grid2.bound a ≤ grid7.bound a) a)⟩

set_option maxRecDepth 65536 in
theorem body2_eq (i : grid2.Coords) (a2 : Memref sig .tc .vmem S128x64x128 .f32) (h2 : a2.IsWhole)
    (a3 : Memref sig .tc .vmem S128x1x128 .f32) (h3 : a3.IsWhole) :
    cc2__sum_kernel (F := F) i a2 h2 a3 h3 = cc7__sum_kernel (up2 i) a2 h2 a3 h3 := rfl

/-- The input tile at point t. -/
def iblk2 (c : Dev nD) (t : Fin cfg2.N) : Vec F S128x64x128 .f32 :=
  ((cfg2.win 0).blk t).view.read (Elt F) (V c (Pipeline.arrRef spec2 0))

/-- The branch condition holds exactly at the multiples of L. -/
theorem hcond2 : ∀ t : Fin cfg2.N, resets (up2 (grid2.coords t) 1).val ↔ t.val % 3 = 0 :=
  (by decide +kernel : ∀ t : Fin grid2.N, resets (up2 (grid2.coords t) 1).val ↔ t.val % 3 = 0)

/-- The run's data: the input tiles, and the output tile after each point as the running update. -/
def dat2 (c : Dev nD) : Dat τ (Elt F) Unit ℕ (UR sig nD τ) ℕ cfg2 c where
  A w := V c (Pipeline.arrRef spec2 w)
  after w t := match w with
    | ⟨0, _⟩ => iblk2 V c t
    | ⟨1, _⟩ => acc cfg2.N 3 (iblk2 V c) t.val t.isLt
  Φ _ := Pipeline.ΦA spec2 c
  q _ := fullShare
  owed _ := 0

theorem after2_1 (c : Dev nD) (t : Fin cfg2.N) : (dat2 V c).after 1 t = acc cfg2.N 3 (iblk2 V c) t.val t.isLt := rfl

theorem before2_0 (c : Dev nD) (t : Fin cfg2.N) (d) : (dat2 V c).before 0 t d = iblk2 V c t :=
  ((dat2 V c).before_in_eq_fetched 0 rfl (fun _ => rfl) (fun _ _ _ => rfl) (fun _ => rfl) t d).trans rfl

/-- Off the multiples of L the output tile enters a point as the point before left it. -/
theorem before2_1 (c : Dev nD) (t : Fin cfg2.N) (h0 : ¬t.val % 3 = 0) (d) :
    (dat2 V c).before 1 t d = acc cfg2.N 3 (iblk2 V c) (t.val - 1) (Nat.lt_of_le_of_lt (Nat.sub_le _ _) t.isLt) := by
  have hN : t.val < 12 := lt_of_lt_of_eq t.isLt (show cfg2.N = 12 from N_2)
  first
  | exact absurd (Nat.mod_one _) h0
  | (rw [Dat.before_out_kept _ 1 rfl t (by omega) (Bool.eq_false_iff.mpr fun h => by have := (flush2_1 _).mp h; dsimp only at this; omega)
      (fun _ => rfl) (fun _ _ => rfl)]
     rfl)

theorem sound_body2 (c : Dev nD) (t : Fin cfg2.N) :
    iprop((dat2 V c).Φ t.castSucc ∗ (dat2 V c).owesAt () t.castSucc
      ∗ (∃ d, owns (c : Thread nD τ) (win2_0.stage (cfg2.slots t 0)) fullShare ((dat2 V c).before 0 t d))
      ∗ (∃ d, owns (c : Thread nD τ) (win2_1.stage (cfg2.slots t 1)) fullShare ((dat2 V c).before 1 t d)))
    ⊢ wp frame (wpE (defs₀ (F := F)) Variants.none c none) Set.univ (bodyAt2 t) (fun _ =>
      iprop((dat2 V c).Φ t.castSucc ∗ (dat2 V c).owesAt () t.castSucc
        ∗ owns (c : Thread nD τ) (win2_0.stage (cfg2.slots t 0)) fullShare (iblk2 V c t)
        ∗ owns (c : Thread nD τ) (win2_1.stage (cfg2.slots t 1)) fullShare (acc cfg2.N 3 (iblk2 V c) t.val t.isLt))) := by
  unfold bodyAt2
  simp only [before2_0]
  rw [body2_eq]
  by_cases h0 : t.val % 3 = 0
  · rw [acc_resets (iblk2 V c) t h0]
    exact step_resets c (up2 (grid2.coords t)) _ _ _ _ (iblk2 V c t) _ _ ((hcond2 t).mpr h0) _
  · rw [acc_adds (iblk2 V c) t h0]
    simp only [before2_1 V c t h0]
    exact step_adds c (up2 (grid2.coords t)) _ _ _ _ (iblk2 V c t) _ _ (fun h => h0 ((hcond2 t).mp h)) _

theorem body_obligation2 (c : Dev nD) : BodyObligation (dat2 (F := F) V c) (defs₀ (F := F)) Variants.none () Set.univ := fun t => by
  rw [bigSep_W2, bigSep_W2]
  exact sound_body2 V c t

end Cert.Kernel.Frm

end
-- ==== Proof.K.Region3.lean ====
import proofs.«131913_j48773648613703_1_alg».proof.Proof.K.Body

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- A point of this grid as a point of the largest of the eight: the coordinates' values are kept. -/
def up3 (i : grid3.Coords) : grid7.Coords :=
  fun a => ⟨(i a).val, Nat.lt_of_lt_of_le (i a).isLt ((by decide : ∀ a, grid3.bound a ≤ grid7.bound a) a)⟩

set_option maxRecDepth 65536 in
theorem body3_eq (i : grid3.Coords) (a2 : Memref sig .tc .vmem S128x64x128 .f32) (h2 : a2.IsWhole)
    (a3 : Memref sig .tc .vmem S128x1x128 .f32) (h3 : a3.IsWhole) :
    cc3__sum_kernel (F := F) i a2 h2 a3 h3 = cc7__sum_kernel (up3 i) a2 h2 a3 h3 := rfl

/-- The input tile at point t. -/
def iblk3 (c : Dev nD) (t : Fin cfg3.N) : Vec F S128x64x128 .f32 :=
  ((cfg3.win 0).blk t).view.read (Elt F) (V c (Pipeline.arrRef spec3 0))

/-- The branch condition holds exactly at the multiples of L. -/
theorem hcond3 : ∀ t : Fin cfg3.N, resets (up3 (grid3.coords t) 1).val ↔ t.val % 4 = 0 :=
  (by decide +kernel : ∀ t : Fin grid3.N, resets (up3 (grid3.coords t) 1).val ↔ t.val % 4 = 0)

/-- The run's data: the input tiles, and the output tile after each point as the running update. -/
def dat3 (c : Dev nD) : Dat τ (Elt F) Unit ℕ (UR sig nD τ) ℕ cfg3 c where
  A w := V c (Pipeline.arrRef spec3 w)
  after w t := match w with
    | ⟨0, _⟩ => iblk3 V c t
    | ⟨1, _⟩ => acc cfg3.N 4 (iblk3 V c) t.val t.isLt
  Φ _ := Pipeline.ΦA spec3 c
  q _ := fullShare
  owed _ := 0

theorem after3_1 (c : Dev nD) (t : Fin cfg3.N) : (dat3 V c).after 1 t = acc cfg3.N 4 (iblk3 V c) t.val t.isLt := rfl

theorem before3_0 (c : Dev nD) (t : Fin cfg3.N) (d) : (dat3 V c).before 0 t d = iblk3 V c t :=
  ((dat3 V c).before_in_eq_fetched 0 rfl (fun _ => rfl) (fun _ _ _ => rfl) (fun _ => rfl) t d).trans rfl

/-- Off the multiples of L the output tile enters a point as the point before left it. -/
theorem before3_1 (c : Dev nD) (t : Fin cfg3.N) (h0 : ¬t.val % 4 = 0) (d) :
    (dat3 V c).before 1 t d = acc cfg3.N 4 (iblk3 V c) (t.val - 1) (Nat.lt_of_le_of_lt (Nat.sub_le _ _) t.isLt) := by
  have hN : t.val < 16 := lt_of_lt_of_eq t.isLt (show cfg3.N = 16 from N_3)
  first
  | exact absurd (Nat.mod_one _) h0
  | (rw [Dat.before_out_kept _ 1 rfl t (by omega) (Bool.eq_false_iff.mpr fun h => by have := (flush3_1 _).mp h; dsimp only at this; omega)
      (fun _ => rfl) (fun _ _ => rfl)]
     rfl)

theorem sound_body3 (c : Dev nD) (t : Fin cfg3.N) :
    iprop((dat3 V c).Φ t.castSucc ∗ (dat3 V c).owesAt () t.castSucc
      ∗ (∃ d, owns (c : Thread nD τ) (win3_0.stage (cfg3.slots t 0)) fullShare ((dat3 V c).before 0 t d))
      ∗ (∃ d, owns (c : Thread nD τ) (win3_1.stage (cfg3.slots t 1)) fullShare ((dat3 V c).before 1 t d)))
    ⊢ wp frame (wpE (defs₀ (F := F)) Variants.none c none) Set.univ (bodyAt3 t) (fun _ =>
      iprop((dat3 V c).Φ t.castSucc ∗ (dat3 V c).owesAt () t.castSucc
        ∗ owns (c : Thread nD τ) (win3_0.stage (cfg3.slots t 0)) fullShare (iblk3 V c t)
        ∗ owns (c : Thread nD τ) (win3_1.stage (cfg3.slots t 1)) fullShare (acc cfg3.N 4 (iblk3 V c) t.val t.isLt))) := by
  unfold bodyAt3
  simp only [before3_0]
  rw [body3_eq]
  by_cases h0 : t.val % 4 = 0
  · rw [acc_resets (iblk3 V c) t h0]
    exact step_resets c (up3 (grid3.coords t)) _ _ _ _ (iblk3 V c t) _ _ ((hcond3 t).mpr h0) _
  · rw [acc_adds (iblk3 V c) t h0]
    simp only [before3_1 V c t h0]
    exact step_adds c (up3 (grid3.coords t)) _ _ _ _ (iblk3 V c t) _ _ (fun h => h0 ((hcond3 t).mp h)) _

theorem body_obligation3 (c : Dev nD) : BodyObligation (dat3 (F := F) V c) (defs₀ (F := F)) Variants.none () Set.univ := fun t => by
  rw [bigSep_W3, bigSep_W3]
  exact sound_body3 V c t

end Cert.Kernel.Frm

end
-- ==== Proof.K.Region4.lean ====
import proofs.«131913_j48773648613703_1_alg».proof.Proof.K.Body

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- A point of this grid as a point of the largest of the eight: the coordinates' values are kept. -/
def up4 (i : grid4.Coords) : grid7.Coords :=
  fun a => ⟨(i a).val, Nat.lt_of_lt_of_le (i a).isLt ((by decide : ∀ a, grid4.bound a ≤ grid7.bound a) a)⟩

set_option maxRecDepth 65536 in
theorem body4_eq (i : grid4.Coords) (a2 : Memref sig .tc .vmem S128x64x128 .f32) (h2 : a2.IsWhole)
    (a3 : Memref sig .tc .vmem S128x1x128 .f32) (h3 : a3.IsWhole) :
    cc4__sum_kernel (F := F) i a2 h2 a3 h3 = cc7__sum_kernel (up4 i) a2 h2 a3 h3 := rfl

/-- The input tile at point t. -/
def iblk4 (c : Dev nD) (t : Fin cfg4.N) : Vec F S128x64x128 .f32 :=
  ((cfg4.win 0).blk t).view.read (Elt F) (V c (Pipeline.arrRef spec4 0))

/-- The branch condition holds exactly at the multiples of L. -/
theorem hcond4 : ∀ t : Fin cfg4.N, resets (up4 (grid4.coords t) 1).val ↔ t.val % 5 = 0 :=
  (by decide +kernel : ∀ t : Fin grid4.N, resets (up4 (grid4.coords t) 1).val ↔ t.val % 5 = 0)

/-- The run's data: the input tiles, and the output tile after each point as the running update. -/
def dat4 (c : Dev nD) : Dat τ (Elt F) Unit ℕ (UR sig nD τ) ℕ cfg4 c where
  A w := V c (Pipeline.arrRef spec4 w)
  after w t := match w with
    | ⟨0, _⟩ => iblk4 V c t
    | ⟨1, _⟩ => acc cfg4.N 5 (iblk4 V c) t.val t.isLt
  Φ _ := Pipeline.ΦA spec4 c
  q _ := fullShare
  owed _ := 0

theorem after4_1 (c : Dev nD) (t : Fin cfg4.N) : (dat4 V c).after 1 t = acc cfg4.N 5 (iblk4 V c) t.val t.isLt := rfl

theorem before4_0 (c : Dev nD) (t : Fin cfg4.N) (d) : (dat4 V c).before 0 t d = iblk4 V c t :=
  ((dat4 V c).before_in_eq_fetched 0 rfl (fun _ => rfl) (fun _ _ _ => rfl) (fun _ => rfl) t d).trans rfl

/-- Off the multiples of L the output tile enters a point as the point before left it. -/
theorem before4_1 (c : Dev nD) (t : Fin cfg4.N) (h0 : ¬t.val % 5 = 0) (d) :
    (dat4 V c).before 1 t d = acc cfg4.N 5 (iblk4 V c) (t.val - 1) (Nat.lt_of_le_of_lt (Nat.sub_le _ _) t.isLt) := by
  have hN : t.val < 20 := lt_of_lt_of_eq t.isLt (show cfg4.N = 20 from N_4)
  first
  | exact absurd (Nat.mod_one _) h0
  | (rw [Dat.before_out_kept _ 1 rfl t (by omega) (Bool.eq_false_iff.mpr fun h => by have := (flush4_1 _).mp h; dsimp only at this; omega)
      (fun _ => rfl) (fun _ _ => rfl)]
     rfl)

theorem sound_body4 (c : Dev nD) (t : Fin cfg4.N) :
    iprop((dat4 V c).Φ t.castSucc ∗ (dat4 V c).owesAt () t.castSucc
      ∗ (∃ d, owns (c : Thread nD τ) (win4_0.stage (cfg4.slots t 0)) fullShare ((dat4 V c).before 0 t d))
      ∗ (∃ d, owns (c : Thread nD τ) (win4_1.stage (cfg4.slots t 1)) fullShare ((dat4 V c).before 1 t d)))
    ⊢ wp frame (wpE (defs₀ (F := F)) Variants.none c none) Set.univ (bodyAt4 t) (fun _ =>
      iprop((dat4 V c).Φ t.castSucc ∗ (dat4 V c).owesAt () t.castSucc
        ∗ owns (c : Thread nD τ) (win4_0.stage (cfg4.slots t 0)) fullShare (iblk4 V c t)
        ∗ owns (c : Thread nD τ) (win4_1.stage (cfg4.slots t 1)) fullShare (acc cfg4.N 5 (iblk4 V c) t.val t.isLt))) := by
  unfold bodyAt4
  simp only [before4_0]
  rw [body4_eq]
  by_cases h0 : t.val % 5 = 0
  · rw [acc_resets (iblk4 V c) t h0]
    exact step_resets c (up4 (grid4.coords t)) _ _ _ _ (iblk4 V c t) _ _ ((hcond4 t).mpr h0) _
  · rw [acc_adds (iblk4 V c) t h0]
    simp only [before4_1 V c t h0]
    exact step_adds c (up4 (grid4.coords t)) _ _ _ _ (iblk4 V c t) _ _ (fun h => h0 ((hcond4 t).mp h)) _

theorem body_obligation4 (c : Dev nD) : BodyObligation (dat4 (F := F) V c) (defs₀ (F := F)) Variants.none () Set.univ := fun t => by
  rw [bigSep_W4, bigSep_W4]
  exact sound_body4 V c t

end Cert.Kernel.Frm

end
-- ==== Proof.K.Region5.lean ====
import proofs.«131913_j48773648613703_1_alg».proof.Proof.K.Body

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- A point of this grid as a point of the largest of the eight: the coordinates' values are kept. -/
def up5 (i : grid5.Coords) : grid7.Coords :=
  fun a => ⟨(i a).val, Nat.lt_of_lt_of_le (i a).isLt ((by decide : ∀ a, grid5.bound a ≤ grid7.bound a) a)⟩

set_option maxRecDepth 65536 in
theorem body5_eq (i : grid5.Coords) (a2 : Memref sig .tc .vmem S128x64x128 .f32) (h2 : a2.IsWhole)
    (a3 : Memref sig .tc .vmem S128x1x128 .f32) (h3 : a3.IsWhole) :
    cc5__sum_kernel (F := F) i a2 h2 a3 h3 = cc7__sum_kernel (up5 i) a2 h2 a3 h3 := rfl

/-- The input tile at point t. -/
def iblk5 (c : Dev nD) (t : Fin cfg5.N) : Vec F S128x64x128 .f32 :=
  ((cfg5.win 0).blk t).view.read (Elt F) (V c (Pipeline.arrRef spec5 0))

/-- The branch condition holds exactly at the multiples of L. -/
theorem hcond5 : ∀ t : Fin cfg5.N, resets (up5 (grid5.coords t) 1).val ↔ t.val % 6 = 0 :=
  (by decide +kernel : ∀ t : Fin grid5.N, resets (up5 (grid5.coords t) 1).val ↔ t.val % 6 = 0)

/-- The run's data: the input tiles, and the output tile after each point as the running update. -/
def dat5 (c : Dev nD) : Dat τ (Elt F) Unit ℕ (UR sig nD τ) ℕ cfg5 c where
  A w := V c (Pipeline.arrRef spec5 w)
  after w t := match w with
    | ⟨0, _⟩ => iblk5 V c t
    | ⟨1, _⟩ => acc cfg5.N 6 (iblk5 V c) t.val t.isLt
  Φ _ := Pipeline.ΦA spec5 c
  q _ := fullShare
  owed _ := 0

theorem after5_1 (c : Dev nD) (t : Fin cfg5.N) : (dat5 V c).after 1 t = acc cfg5.N 6 (iblk5 V c) t.val t.isLt := rfl

theorem before5_0 (c : Dev nD) (t : Fin cfg5.N) (d) : (dat5 V c).before 0 t d = iblk5 V c t :=
  ((dat5 V c).before_in_eq_fetched 0 rfl (fun _ => rfl) (fun _ _ _ => rfl) (fun _ => rfl) t d).trans rfl

/-- Off the multiples of L the output tile enters a point as the point before left it. -/
theorem before5_1 (c : Dev nD) (t : Fin cfg5.N) (h0 : ¬t.val % 6 = 0) (d) :
    (dat5 V c).before 1 t d = acc cfg5.N 6 (iblk5 V c) (t.val - 1) (Nat.lt_of_le_of_lt (Nat.sub_le _ _) t.isLt) := by
  have hN : t.val < 24 := lt_of_lt_of_eq t.isLt (show cfg5.N = 24 from N_5)
  first
  | exact absurd (Nat.mod_one _) h0
  | (rw [Dat.before_out_kept _ 1 rfl t (by omega) (Bool.eq_false_iff.mpr fun h => by have := (flush5_1 _).mp h; dsimp only at this; omega)
      (fun _ => rfl) (fun _ _ => rfl)]
     rfl)

theorem sound_body5 (c : Dev nD) (t : Fin cfg5.N) :
    iprop((dat5 V c).Φ t.castSucc ∗ (dat5 V c).owesAt () t.castSucc
      ∗ (∃ d, owns (c : Thread nD τ) (win5_0.stage (cfg5.slots t 0)) fullShare ((dat5 V c).before 0 t d))
      ∗ (∃ d, owns (c : Thread nD τ) (win5_1.stage (cfg5.slots t 1)) fullShare ((dat5 V c).before 1 t d)))
    ⊢ wp frame (wpE (defs₀ (F := F)) Variants.none c none) Set.univ (bodyAt5 t) (fun _ =>
      iprop((dat5 V c).Φ t.castSucc ∗ (dat5 V c).owesAt () t.castSucc
        ∗ owns (c : Thread nD τ) (win5_0.stage (cfg5.slots t 0)) fullShare (iblk5 V c t)
        ∗ owns (c : Thread nD τ) (win5_1.stage (cfg5.slots t 1)) fullShare (acc cfg5.N 6 (iblk5 V c) t.val t.isLt))) := by
  unfold bodyAt5
  simp only [before5_0]
  rw [body5_eq]
  by_cases h0 : t.val % 6 = 0
  · rw [acc_resets (iblk5 V c) t h0]
    exact step_resets c (up5 (grid5.coords t)) _ _ _ _ (iblk5 V c t) _ _ ((hcond5 t).mpr h0) _
  · rw [acc_adds (iblk5 V c) t h0]
    simp only [before5_1 V c t h0]
    exact step_adds c (up5 (grid5.coords t)) _ _ _ _ (iblk5 V c t) _ _ (fun h => h0 ((hcond5 t).mp h)) _

theorem body_obligation5 (c : Dev nD) : BodyObligation (dat5 (F := F) V c) (defs₀ (F := F)) Variants.none () Set.univ := fun t => by
  rw [bigSep_W5, bigSep_W5]
  exact sound_body5 V c t

end Cert.Kernel.Frm

end
-- ==== Proof.K.Region6.lean ====
import proofs.«131913_j48773648613703_1_alg».proof.Proof.K.Body

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- A point of this grid as a point of the largest of the eight: the coordinates' values are kept. -/
def up6 (i : grid6.Coords) : grid7.Coords :=
  fun a => ⟨(i a).val, Nat.lt_of_lt_of_le (i a).isLt ((by decide : ∀ a, grid6.bound a ≤ grid7.bound a) a)⟩

set_option maxRecDepth 65536 in
theorem body6_eq (i : grid6.Coords) (a2 : Memref sig .tc .vmem S128x64x128 .f32) (h2 : a2.IsWhole)
    (a3 : Memref sig .tc .vmem S128x1x128 .f32) (h3 : a3.IsWhole) :
    cc6__sum_kernel (F := F) i a2 h2 a3 h3 = cc7__sum_kernel (up6 i) a2 h2 a3 h3 := rfl

/-- The input tile at point t. -/
def iblk6 (c : Dev nD) (t : Fin cfg6.N) : Vec F S128x64x128 .f32 :=
  ((cfg6.win 0).blk t).view.read (Elt F) (V c (Pipeline.arrRef spec6 0))

/-- The branch condition holds exactly at the multiples of L. -/
theorem hcond6 : ∀ t : Fin cfg6.N, resets (up6 (grid6.coords t) 1).val ↔ t.val % 7 = 0 :=
  (by decide +kernel : ∀ t : Fin grid6.N, resets (up6 (grid6.coords t) 1).val ↔ t.val % 7 = 0)

/-- The run's data: the input tiles, and the output tile after each point as the running update. -/
def dat6 (c : Dev nD) : Dat τ (Elt F) Unit ℕ (UR sig nD τ) ℕ cfg6 c where
  A w := V c (Pipeline.arrRef spec6 w)
  after w t := match w with
    | ⟨0, _⟩ => iblk6 V c t
    | ⟨1, _⟩ => acc cfg6.N 7 (iblk6 V c) t.val t.isLt
  Φ _ := Pipeline.ΦA spec6 c
  q _ := fullShare
  owed _ := 0

theorem after6_1 (c : Dev nD) (t : Fin cfg6.N) : (dat6 V c).after 1 t = acc cfg6.N 7 (iblk6 V c) t.val t.isLt := rfl

theorem before6_0 (c : Dev nD) (t : Fin cfg6.N) (d) : (dat6 V c).before 0 t d = iblk6 V c t :=
  ((dat6 V c).before_in_eq_fetched 0 rfl (fun _ => rfl) (fun _ _ _ => rfl) (fun _ => rfl) t d).trans rfl

/-- Off the multiples of L the output tile enters a point as the point before left it. -/
theorem before6_1 (c : Dev nD) (t : Fin cfg6.N) (h0 : ¬t.val % 7 = 0) (d) :
    (dat6 V c).before 1 t d = acc cfg6.N 7 (iblk6 V c) (t.val - 1) (Nat.lt_of_le_of_lt (Nat.sub_le _ _) t.isLt) := by
  have hN : t.val < 28 := lt_of_lt_of_eq t.isLt (show cfg6.N = 28 from N_6)
  first
  | exact absurd (Nat.mod_one _) h0
  | (rw [Dat.before_out_kept _ 1 rfl t (by omega) (Bool.eq_false_iff.mpr fun h => by have := (flush6_1 _).mp h; dsimp only at this; omega)
      (fun _ => rfl) (fun _ _ => rfl)]
     rfl)

theorem sound_body6 (c : Dev nD) (t : Fin cfg6.N) :
    iprop((dat6 V c).Φ t.castSucc ∗ (dat6 V c).owesAt () t.castSucc
      ∗ (∃ d, owns (c : Thread nD τ) (win6_0.stage (cfg6.slots t 0)) fullShare ((dat6 V c).before 0 t d))
      ∗ (∃ d, owns (c : Thread nD τ) (win6_1.stage (cfg6.slots t 1)) fullShare ((dat6 V c).before 1 t d)))
    ⊢ wp frame (wpE (defs₀ (F := F)) Variants.none c none) Set.univ (bodyAt6 t) (fun _ =>
      iprop((dat6 V c).Φ t.castSucc ∗ (dat6 V c).owesAt () t.castSucc
        ∗ owns (c : Thread nD τ) (win6_0.stage (cfg6.slots t 0)) fullShare (iblk6 V c t)
        ∗ owns (c : Thread nD τ) (win6_1.stage (cfg6.slots t 1)) fullShare (acc cfg6.N 7 (iblk6 V c) t.val t.isLt))) := by
  unfold bodyAt6
  simp only [before6_0]
  rw [body6_eq]
  by_cases h0 : t.val % 7 = 0
  · rw [acc_resets (iblk6 V c) t h0]
    exact step_resets c (up6 (grid6.coords t)) _ _ _ _ (iblk6 V c t) _ _ ((hcond6 t).mpr h0) _
  · rw [acc_adds (iblk6 V c) t h0]
    simp only [before6_1 V c t h0]
    exact step_adds c (up6 (grid6.coords t)) _ _ _ _ (iblk6 V c t) _ _ (fun h => h0 ((hcond6 t).mp h)) _

theorem body_obligation6 (c : Dev nD) : BodyObligation (dat6 (F := F) V c) (defs₀ (F := F)) Variants.none () Set.univ := fun t => by
  rw [bigSep_W6, bigSep_W6]
  exact sound_body6 V c t

end Cert.Kernel.Frm

end
-- ==== Proof.K.Region7.lean ====
import proofs.«131913_j48773648613703_1_alg».proof.Proof.K.Body

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- A point of this grid as a point of the largest of the eight: the coordinates' values are kept. -/
def up7 (i : grid7.Coords) : grid7.Coords :=
  fun a => ⟨(i a).val, Nat.lt_of_lt_of_le (i a).isLt ((by decide : ∀ a, grid7.bound a ≤ grid7.bound a) a)⟩

set_option maxRecDepth 65536 in
theorem body7_eq (i : grid7.Coords) (a2 : Memref sig .tc .vmem S128x64x128 .f32) (h2 : a2.IsWhole)
    (a3 : Memref sig .tc .vmem S128x1x128 .f32) (h3 : a3.IsWhole) :
    cc7__sum_kernel (F := F) i a2 h2 a3 h3 = cc7__sum_kernel (up7 i) a2 h2 a3 h3 := rfl

/-- The input tile at point t. -/
def iblk7 (c : Dev nD) (t : Fin cfg7.N) : Vec F S128x64x128 .f32 :=
  ((cfg7.win 0).blk t).view.read (Elt F) (V c (Pipeline.arrRef spec7 0))

/-- The branch condition holds exactly at the multiples of L. -/
theorem hcond7 : ∀ t : Fin cfg7.N, resets (up7 (grid7.coords t) 1).val ↔ t.val % 8 = 0 :=
  (by decide +kernel : ∀ t : Fin grid7.N, resets (up7 (grid7.coords t) 1).val ↔ t.val % 8 = 0)

/-- The run's data: the input tiles, and the output tile after each point as the running update. -/
def dat7 (c : Dev nD) : Dat τ (Elt F) Unit ℕ (UR sig nD τ) ℕ cfg7 c where
  A w := V c (Pipeline.arrRef spec7 w)
  after w t := match w with
    | ⟨0, _⟩ => iblk7 V c t
    | ⟨1, _⟩ => acc cfg7.N 8 (iblk7 V c) t.val t.isLt
  Φ _ := Pipeline.ΦA spec7 c
  q _ := fullShare
  owed _ := 0

theorem after7_1 (c : Dev nD) (t : Fin cfg7.N) : (dat7 V c).after 1 t = acc cfg7.N 8 (iblk7 V c) t.val t.isLt := rfl

theorem before7_0 (c : Dev nD) (t : Fin cfg7.N) (d) : (dat7 V c).before 0 t d = iblk7 V c t :=
  ((dat7 V c).before_in_eq_fetched 0 rfl (fun _ => rfl) (fun _ _ _ => rfl) (fun _ => rfl) t d).trans rfl

/-- Off the multiples of L the output tile enters a point as the point before left it. -/
theorem before7_1 (c : Dev nD) (t : Fin cfg7.N) (h0 : ¬t.val % 8 = 0) (d) :
    (dat7 V c).before 1 t d = acc cfg7.N 8 (iblk7 V c) (t.val - 1) (Nat.lt_of_le_of_lt (Nat.sub_le _ _) t.isLt) := by
  have hN : t.val < 32 := lt_of_lt_of_eq t.isLt (show cfg7.N = 32 from N_7)
  first
  | exact absurd (Nat.mod_one _) h0
  | (rw [Dat.before_out_kept _ 1 rfl t (by omega) (Bool.eq_false_iff.mpr fun h => by have := (flush7_1 _).mp h; dsimp only at this; omega)
      (fun _ => rfl) (fun _ _ => rfl)]
     rfl)

theorem sound_body7 (c : Dev nD) (t : Fin cfg7.N) :
    iprop((dat7 V c).Φ t.castSucc ∗ (dat7 V c).owesAt () t.castSucc
      ∗ (∃ d, owns (c : Thread nD τ) (win7_0.stage (cfg7.slots t 0)) fullShare ((dat7 V c).before 0 t d))
      ∗ (∃ d, owns (c : Thread nD τ) (win7_1.stage (cfg7.slots t 1)) fullShare ((dat7 V c).before 1 t d)))
    ⊢ wp frame (wpE (defs₀ (F := F)) Variants.none c none) Set.univ (bodyAt7 t) (fun _ =>
      iprop((dat7 V c).Φ t.castSucc ∗ (dat7 V c).owesAt () t.castSucc
        ∗ owns (c : Thread nD τ) (win7_0.stage (cfg7.slots t 0)) fullShare (iblk7 V c t)
        ∗ owns (c : Thread nD τ) (win7_1.stage (cfg7.slots t 1)) fullShare (acc cfg7.N 8 (iblk7 V c) t.val t.isLt))) := by
  unfold bodyAt7
  simp only [before7_0]
  rw [body7_eq]
  by_cases h0 : t.val % 8 = 0
  · rw [acc_resets (iblk7 V c) t h0]
    exact step_resets c (up7 (grid7.coords t)) _ _ _ _ (iblk7 V c t) _ _ ((hcond7 t).mpr h0) _
  · rw [acc_adds (iblk7 V c) t h0]
    simp only [before7_1 V c t h0]
    exact step_adds c (up7 (grid7.coords t)) _ _ _ _ (iblk7 V c t) _ _ (fun h => h0 ((hcond7 t).mp h)) _

theorem body_obligation7 (c : Dev nD) : BodyObligation (dat7 (F := F) V c) (defs₀ (F := F)) Variants.none () Set.univ := fun t => by
  rw [bigSep_W7, bigSep_W7]
  exact sound_body7 V c t

end Cert.Kernel.Frm

end
-- ==== Proof.K.Pdats.lean ====
import proofs.«131913_j48773648613703_1_alg».proof.Proof.K.Region0
import proofs.«131913_j48773648613703_1_alg».proof.Proof.K.Region1
import proofs.«131913_j48773648613703_1_alg».proof.Proof.K.Region2
import proofs.«131913_j48773648613703_1_alg».proof.Proof.K.Region3
import proofs.«131913_j48773648613703_1_alg».proof.Proof.K.Region4
import proofs.«131913_j48773648613703_1_alg».proof.Proof.K.Region5
import proofs.«131913_j48773648613703_1_alg».proof.Proof.K.Region6
import proofs.«131913_j48773648613703_1_alg».proof.Proof.K.Region7

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core c's buffers at launch, -/
abbrev W0 : Dev nD → Valuation τ sig (Elt F) := fun c b => m ((c : Dev nD), b)
/-- read at the core's own references. -/
abbrev VL : (c : Dev nD) → (b : Ref sig .tc) → Buf (Elt F) ((c : Thread nD τ).loc b) := fun c b => W0 m c b

abbrev adm : (p : Fin 8) → (pcfgs (F := F) p).Adm := fun p => (cfgs p).toPCfg_adm

/-- The eight regions' data, all at the launch contents: their arrays are distinct. -/
def pdats : (p : Fin 8) → (c : Dev nD) → Dat τ (Elt F) Unit ℕ (UR sig nD τ) ℕ (Pipeline.pin (pcfgs (F := F)) adm p) c
  | ⟨0, _⟩ => fun c => dat0 (VL m) c
  | ⟨1, _⟩ => fun c => dat1 (VL m) c
  | ⟨2, _⟩ => fun c => dat2 (VL m) c
  | ⟨3, _⟩ => fun c => dat3 (VL m) c
  | ⟨4, _⟩ => fun c => dat4 (VL m) c
  | ⟨5, _⟩ => fun c => dat5 (VL m) c
  | ⟨6, _⟩ => fun c => dat6 (VL m) c
  | ⟨7, _⟩ => fun c => dat7 (VL m) c

abbrev 𝒱₀ : Variants := Variants.none
abbrev L : GSem nD τ sig → Finset Unit := fun _ => ∅
abbrev lv : GSem nD τ sig → Unit → ℕ := fun _ _ => 0
/-- What every segment carries beside the buffers: the generator register at some state, nothing owed. -/
abbrev R (c : Dev nD) : sProp 𝕄 := iprop((∃ r, prngReg c r) ∗ ∃ W, owes (c : Thread nD τ) (0 : CellTallies nD τ sig Unit) W)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.Kernel.Frm

end
-- ==== Proof.K.Seg.lean ====
import proofs.«131913_j48773648613703_1_alg».proof.Proof.K.Pdats
import Idealize.ShloMosaic.Lib.Pipeline.RegionsLoop
import Idealize.ShloMosaic.Lib.Pipeline.FrameSuffix

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation cellOf)

variable {F : FTy → Type} [FloatOps F]

local notation "𝕄" => MT nD τ sig Unit (Elt F) ℕ (UR sig nD τ) ℕ

variable (m : (ℓ : Loc nD τ sig) → Buf (Elt F) ℓ)
variable (Win : Dev nD → Valuation τ sig (Elt F))
variable (p : Fin 8)

theorem launch : Pipeline.LaunchFacts (nD := nD) (τ := τ) cfgs p := by
  fin_cases p
  exacts [launch0, launch1, launch2, launch3, launch4, launch5, launch6, launch7]

theorem pdats_body (c : Dev nD) : BodyObligation (pdats m p c) (defs₀ (F := F)) Variants.none () Set.univ := by
  fin_cases p
  exacts [body_obligation0 (VL m) c, body_obligation1 (VL m) c, body_obligation2 (VL m) c, body_obligation3 (VL m) c,
    body_obligation4 (VL m) c, body_obligation5 (VL m) c, body_obligation6 (VL m) c, body_obligation7 (VL m) c]

/-- What the eight regions' data share: the launch contents, one invariant, full shares, no dues. -/
theorem pdats_A (c : Dev nD) (w : Fin (cfgs p).W) : (pdats m p c).A w = VL m c (Pipeline.arrRef (cfgs p).spec w) := by
  fin_cases p <;> rfl

theorem pdats_Φ (c : Dev nD) (j) : (pdats m p c).Φ j = Pipeline.ΦA (cfgs p).spec c := by
  fin_cases p <;> rfl

theorem pdats_share (c : Dev nD) : ∀ w, (pdats m p c).share w = fullShare := by
  fin_cases p <;> exact (Dat.share_full _ fun _ => rfl)

theorem pdats_owed (c : Dev nD) (t) : (pdats m p c).owed t = 0 := by
  fin_cases p <;> rfl

/-- Owing nothing is what the data ask at the first point and leave at the last. -/
theorem owes_in (c : Dev nD) :
    iprop(∃ W, owes (c : Thread nD τ) (0 : CellTallies nD τ sig Unit) W) ⊢ ((pdats m p c).owesAt () 0 : sProp 𝕄) := by
  fin_cases p <;>
  · unfold Pipeline.Dat.owesAt Pipeline.owesWithin
    iintro ⟨%W, HO⟩; iexists W; isplitr; · ipureintro; exact fun _ _ => Or.inl trivial
    iexact HO

theorem owes_out (c : Dev nD) :
    ((pdats m p c).owesAt () (Fin.last _) : sProp 𝕄) ⊢ iprop(∃ W, owes (c : Thread nD τ) (0 : CellTallies nD τ sig Unit) W) := by
  fin_cases p <;>
  · unfold Pipeline.Dat.owesAt Pipeline.owesWithin
    iintro ⟨%W, -, HO⟩; iexists W; iexact HO

/-- Region p's exit contents: its two arrays at their final contents, every other buffer as entered. -/
def Wout (c : Dev nD) : Valuation τ sig (Elt F) :=
  Pipeline.withArrays (cfgs p).spec c (Win c) fun w => (pdats m p c).arrAt w (cfgs p).N

theorem Wout_arr (c : Dev nD) (w : Fin (cfgs p).W) :
    Wout m Win p c (Proc.devRef .tc (Pipeline.arrRef (cfgs p).spec w)) = (pdats m p c).arrAt w (cfgs p).N := by
  unfold Wout; exact Pipeline.withArrays_arr _ (launch p).win.arr_inj c _ _ w

theorem Wout_of_ne (c : Dev nD) (b : Ref sig .tc) (hb : ∀ w, Pipeline.arrRef (cfgs p).spec w ≠ b) :
    Wout m Win p c (Proc.devRef .tc b) = Win c (Proc.devRef .tc b) := by
  unfold Wout; exact Pipeline.withArrays_of_ne _ c _ _ b hb

set_option backward.isDefEq.respectTransparency.types false in
/-- Region p as a segment of the run: entered at contents Win that agree with the launch on its arrays, left at Wout. -/
def reg (hin : ∀ c w, (pdats m p c).A w = (fun b : Ref sig .tc => Win c b) (Pipeline.arrRef (cfgs p).spec w)) :
    Pipeline.RegionSeg (pcfgs (F := F)) adm (pdats m) () defs₀ 𝒱₀ L lv p where
  win := (launch p).win.to₀
  block_pos := (launch p).block_pos
  stage_whole := (launch p).stage_whole
  K := PEmpty
  osem k := k.elim
  ho := Pipeline.OwnSemFacts.none _
  hbody c := (pdats_body m p c).loose
  hwaits := Pipeline.hwaits_of_owed_zero _ _ _ _ L lv p (pdats_owed m p)
  pre c := iprop(StableHlo.held (c : Thread nD τ) (Pipeline.ucRefs τ sig) (Win c) ∗ R c)
  post c := iprop(StableHlo.held (c : Thread nD τ) (Pipeline.ucRefs τ sig) (Wout m Win p c) ∗ R c)
  X c := iprop(∃ r, prngReg c r)
  Y c := iprop(∃ r, prngReg c r)
  Z c := Pipeline.unscopedRest (Ix := Unit) (Name := ℕ) (U := UR sig nD τ) (Lvl := ℕ) (cfgs p).spec c (fun b : Ref sig .tc => Win c b)
  hentry c := by
    rw [Pipeline.ownSems0_none]
    have hsplit := Pipeline.arrays_of_unscopedBufs (p := p) (pcfgs (F := F)) adm (pdats m) (launch p).win (launch p).arr_whole c
      (pdats_share m p c) (fun b : Ref sig .tc => Win c b) (hin c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply (owes_in m p c); iexact HO
    isplitl [Hp]; · iexact Hp
    iexact Hrest
  hin c := by
    rw [pdats_Φ m p c 0]; unfold Pipeline.ΦA
    iintro ⟨Hp, -, Hr⟩
    isplitl [Hr]; · iexact Hr
    iexact Hp
  hout c := by
    rw [Pipeline.ownSems0_none, pdats_Φ m p c (Fin.last _)]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      (launch p).win (launch p).arr_whole c (pdats m) (pdats_share m p c)
      (fun b : Ref sig .tc => Win c b) (fun b : Ref sig .tc => Wout m Win p c b) ((pdats m p c).arrAt · (cfgs p).N)
      (fun w => (Wout_arr m Win p c w).symm)
      (fun b hb => Wout_of_ne m Win p c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    iapply (owes_out m p c); iexact HO

end Cert.Kernel.Frm

end
-- ==== Proof.K.Keep.lean ====
import proofs.«131913_j48773648613703_1_alg».proof.Proof.K.Seg

noncomputable section

namespace Cert.Kernel.Frm

open Cert.Kernel Cert.Kernel.Gen
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ)

/-- The eight pallas_calls read one argument array and write one result array each, all distinct. -/
theorem arr_distinct : ∀ (j p : Fin 8), j ≠ p → ∀ (w' : Fin (cfgs j).W) (w : Fin (cfgs p).W),
    Pipeline.arrRef (cfgs j).spec w' ≠ Pipeline.arrRef (cfgs p).spec w := by decide

/-- The buffers' contents at the boundary before region k (k = 8: after the last region). -/
def Wn : ℕ → Dev nD → Valuation τ sig (Elt F)
  | 0 => W0 m
  | k + 1 => if h : k < 8 then Wout m (Wn k) ⟨k, h⟩ else Wn k

/-- A buffer that is no array of the regions before region k is, at that boundary, as launched. -/
theorem Wn_of_ne (c : Dev nD) (b : Ref sig .tc) : ∀ k, (∀ (j : Fin 8), j.val < k → ∀ w, Pipeline.arrRef (cfgs j).spec w ≠ b) →
    Wn m k c (Proc.devRef .tc b) = W0 m c (Proc.devRef .tc b)
  | 0, _ => rfl
  | k + 1, hb => by
    have ih := Wn_of_ne c b k fun j hj => hb j (Nat.lt_succ_of_lt hj)
    unfold Wn
    split
    · next h => exact (Wout_of_ne m _ ⟨k, h⟩ c b (hb ⟨k, h⟩ (Nat.lt_succ_self k))).trans ih
    · exact ih

/-- From region j's exit on its arrays keep their final contents: no later region has them. -/
theorem Wn_arr (c : Dev nD) (j : Fin 8) (w : Fin (cfgs j).W) : ∀ k, j.val < k → k ≤ 8 →
    Wn m k c (Proc.devRef .tc (Pipeline.arrRef (cfgs j).spec w)) = (pdats m j c).arrAt w (cfgs j).N
  | k + 1, hj, hk => by
    have h : k < 8 := hk
    unfold Wn
    rw [dif_pos h]
    rcases Nat.lt_succ_iff_lt_or_eq.mp hj with hlt | heq
    · exact (Wout_of_ne m _ ⟨k, h⟩ c _ fun w' => arr_distinct ⟨k, h⟩ j (Fin.ne_of_val_ne (ne_of_gt hlt)) w' w).trans
        (Wn_arr c j w k hlt (Nat.le_of_lt h))
    · obtain rfl : j = ⟨k, h⟩ := Fin.ext heq
      exact Wout_arr m _ ⟨k, h⟩ c w

/-- Region p finds its arrays as launched. -/
theorem hin (p : Fin 8) (c : Dev nD) (w : Fin (cfgs p).W) :
    (pdats m p c).A w = (fun b : Ref sig .tc => Wn m p.val c b) (Pipeline.arrRef (cfgs p).spec w) :=
  (pdats_A m p c w).trans (Wn_of_ne m c _ p.val fun j hj w' => arr_distinct j p (Fin.ne_of_val_ne (Nat.ne_of_lt hj)) w' w).symm

/-- After the last region an input array is as launched. -/
theorem W8_in (c : Dev nD) (j : Fin 8) (w : Fin (cfgs j).W) (hw : ((cfgs j).win w).isOut = false) :
    Wn m 8 c (Proc.devRef .tc (Pipeline.arrRef (cfgs j).spec w)) = m ((c : Thread nD τ).loc (Pipeline.arrRef (cfgs j).spec w)) :=
  (Wn_arr m c j w 8 j.isLt le_rfl).trans (((pdats m j c).arrAt_in w hw _).trans (pdats_A m j c w))

end Cert.Kernel.Frm

end
-- ==== Proof.K.Run.lean ====
import proofs.«131913_j48773648613703_1_alg».proof.Proof.K.Keep
import proofs.«131913_j48773648613703_1_alg».proof.Proof.Gen.Kernel.Regions
import Idealize.ShloMosaic.Lib.StableHlo.Run

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The closing concatenate as a segment from the last region's exit. -/
abbrev hseg8 : Pipeline.HostSeg (Name := ℕ) (U := UR sig nD τ) (pcfgs (F := F)) defs₀ 𝒱₀ L lv :=
  Pipeline.HostSeg.ofOps _ _ _ _ _ (Pipeline.ucRefs τ sig) hostOps8
    (fun op h => Pipeline.sub_ucRefs op ((List.forall_iff_forall_mem.mp hostOps8_sub) op h))
    (fun op h => (List.forall_iff_forall_mem.mp hostOps8_fresh) op h) (Wn m 8) R

/-- The buffers' contents at the end. -/
abbrev W9 (c : Dev nD) : Valuation τ sig (Elt F) := StableHlo.after hostOps8 (Wn m 8 c)

/-- The program's nine segments: the eight regions, each entered from the one before, then the concatenate. -/
abbrev segs : List (Pipeline.Seg (pcfgs (F := F)) adm (pdats m) () defs₀ 𝒱₀ L lv) :=
  [ .region (reg m (Wn m 0) 0 (hin m 0)), .region (reg m (Wn m 1) 1 (hin m 1)), .region (reg m (Wn m 2) 2 (hin m 2)),
    .region (reg m (Wn m 3) 3 (hin m 3)), .region (reg m (Wn m 4) 4 (hin m 4)), .region (reg m (Wn m 5) 5 (hin m 5)),
    .region (reg m (Wn m 6) 6 (hin m 6)), .region (reg m (Wn m 7) 7 (hin m 7)), .host (hseg8 m) ]

theorem main_run (c : Dev nD) : main (F := F) c = Pipeline.Seg.run (segs m) :=
  main_segs adm (pdats m) () 𝒱₀ L lv (hseg8 m) (reg m (Wn m 0) 0 (hin m 0)) (reg m (Wn m 1) 1 (hin m 1)) (reg m (Wn m 2) 2 (hin m 2))
    (reg m (Wn m 3) 3 (hin m 3)) (reg m (Wn m 4) 4 (hin m 4)) (reg m (Wn m 5) 5 (hin m 5)) (reg m (Wn m 6) 6 (hin m 6))
    (reg m (Wn m 7) 7 (hin m 7)) rfl c

set_option backward.isDefEq.respectTransparency.types false in
/-- Every weakly fair execution terminates with every buffer at the last boundary's contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W9 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => iprop(StableHlo.held (c : Thread nD τ) (Pipeline.ucRefs τ sig) (W9 m c) ∗ ∃ r, prngReg c r))
    (hch := ⟨fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (StableHlo.after hostOps8 (Wn m 8 c))
          ∗ (∃ r, prngReg c r) ∗ ∃ W, owes (c : Thread nD τ) (0 : CellTallies nD τ sig Unit) W) ⊢ _
        iintro ⟨Hh, Hp, Ho⟩
        isplitl [Hh Hp]
        · isplitl [Hh] <;> iassumption
        iexact Ho⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m c b)
    (hfin := fun c s' => by
      iintro ⟨⟨Hh, -⟩, HSI⟩
      unfold StableHlo.held
      imodintro
      iapply (pointsTo_read_all (Pipeline.ucRefs τ sig) (fun b => (((c : Thread nD τ)).1, b)) (W9 m c) s')
      isplitl [Hh] <;> iassumption)
    (hQ := fun s h => h)

/-- An input array ends as launched: the concatenate does not write it either. -/
theorem W9_in (c : Dev nD) (j : Fin 8) (w : Fin (cfgs j).W) (hw : ((cfgs j).win w).isOut = false)
    (hb : Pipeline.arrRef (cfgs j).spec w ∉ hostOps8_W) :
    W9 m c (Proc.devRef .tc (Pipeline.arrRef (cfgs j).spec w)) = m ((c : Thread nD τ).loc (Pipeline.arrRef (cfgs j).spec w)) :=
  (StableHlo.after_of_writes_sub hostOps8 _ hostOps8_writes hb).trans (W8_in m c j w hw)

/-- Every argument array ends as launched. -/
abbrev Kept (s : (ℓ : Loc nD τ sig) → Buf (Elt F) ℓ) (c : Dev nD) : Prop :=
  s ((c.tc : Thread nD τ).loc main_arg0) = m ((c.tc : Thread nD τ).loc main_arg0)
  ∧ s ((c.tc : Thread nD τ).loc main_arg1) = m ((c.tc : Thread nD τ).loc main_arg1)
  ∧ s ((c.tc : Thread nD τ).loc main_arg2) = m ((c.tc : Thread nD τ).loc main_arg2)
  ∧ s ((c.tc : Thread nD τ).loc main_arg3) = m ((c.tc : Thread nD τ).loc main_arg3)
  ∧ s ((c.tc : Thread nD τ).loc main_arg4) = m ((c.tc : Thread nD τ).loc main_arg4)
  ∧ s ((c.tc : Thread nD τ).loc main_arg5) = m ((c.tc : Thread nD τ).loc main_arg5)
  ∧ s ((c.tc : Thread nD τ).loc main_arg6) = m ((c.tc : Thread nD τ).loc main_arg6)
  ∧ s ((c.tc : Thread nD τ).loc main_arg7) = m ((c.tc : Thread nD τ).loc main_arg7)

theorem kept (s : (ℓ : Loc nD τ sig) → Buf (Elt F) ℓ)
    (h : ∀ c : Dev nD, ∀ b ∈ Pipeline.ucRefs τ sig, s (((c : Thread nD τ)).1, b) = W9 m c b) (c : Dev nD) : Kept m s c :=
  ⟨(h c _ (mem_uc main_arg0 (by decide))).trans (W9_in m c 0 (0 : Fin 2) rfl (by decide)),
    (h c _ (mem_uc main_arg1 (by decide))).trans (W9_in m c 1 (0 : Fin 2) rfl (by decide)),
    (h c _ (mem_uc main_arg2 (by decide))).trans (W9_in m c 2 (0 : Fin 2) rfl (by decide)),
    (h c _ (mem_uc main_arg3 (by decide))).trans (W9_in m c 3 (0 : Fin 2) rfl (by decide)),
    (h c _ (mem_uc main_arg4 (by decide))).trans (W9_in m c 4 (0 : Fin 2) rfl (by decide)),
    (h c _ (mem_uc main_arg5 (by decide))).trans (W9_in m c 5 (0 : Fin 2) rfl (by decide)),
    (h c _ (mem_uc main_arg6 (by decide))).trans (W9_in m c 6 (0 : Fin 2) rfl (by decide)),
    (h c _ (mem_uc main_arg7 (by decide))).trans (W9_in m c 7 (0 : Fin 2) rfl (by decide))⟩

/-- The frame: the program runs to the end, nothing faults, every argument array ends as launched. -/
theorem frame : θ_run defs (onTc (τ := τ) (main (F := F))) ⟨m, fun _ => 0, ρ⟩ (fun r => ∀ c : Dev nD, Kept m r.2.mem c) :=
  (θ_run defs _ _).mono (fun r h c => kept m r.2.mem h c) (run_all m ρ)

end Cert.Kernel.Frm

end
-- ==== Proof.KI.Body.lean ====
import proofs.«131913_j48773648613703_1_alg».proof.Proof.Gen.KernelIdeal.Launch
import proofs.«131913_j48773648613703_1_alg».proof.Proof.Gen.KernelIdeal.Skeleton
import proofs.«131913_j48773648613703_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The body's branch condition: the sequence-tile coordinate l is zero. -/
abbrev resets (l : ℕ) : Prop := (Scalar.cmpi .ne (Scalar.extui (Scalar.cmpi .eq (BitVec.ofNat 32 l) 0#32)) 0#32) = 1#1

theorem hz3 : (![0, 0, 0] : Fin 3 → Nat) = fun _ => 0 := funext fun a => by fin_cases a <;> rfl

section Body

variable (c : Dev nD) (i : grid7.Coords) (a2 : Memref sig .tc .vmem S128x64x128 .f32) (h2 : a2.IsWhole)
  (a3 : Memref sig .tc .vmem S128x1x128 .f32) (h3 : a3.IsWhole) (x : Vec F S128x64x128 .f32)

def runA (hc : resets (i 1).val) :
    { L1 : List (View.Piece (Elt F) S128x1x128 .f32) //
      ∀ (E : Set ℕ) (K : PUnit → sProp 𝕄),
        iprop(owns (c : Thread nD τ) a2 fullShare x ∗ (∃ d, owns (c : Thread nD τ) a3 fullShare d)
            ∗ (iprop(owns (c : Thread nD τ) a2 fullShare x ∗ (∃ f, a3.view.loc (c : Thread nD τ) ↦[a3.view.set]{fullShare} a3.view.writes (Elt F) f L1)) -∗ K ⟨⟩))
          ⊢ wp frame (wpE (defs₀ (F := F)) Variants.none c none) E (cc7__sum_kernel i a2 h2 a3 h3) K } := by
  refine ⟨?_, fun E K => ?run⟩
  case run =>
    simp only [cc7__sum_kernel_eq_skeleton]; unfold cc7__sum_kernel_skel
    unfold owns
    iintro ⟨⟨%f0, %hf0, H0⟩, ⟨%d1, %f1, -, H1⟩, Hk⟩
    obtain rfl := h2.eq_unread hf0
    sl_exec (disch := first | exact hc)
    sl_step
    iapply Hk
    isplitl [H0]
    · iexists _; isplitr; · ipureintro; exact h2.read_unread _
      iexact H0
    iexists _; iexact H1

def runB (hc : ¬resets (i 1).val) (xo : Vec F S128x1x128 .f32) :
    { L1 : List (View.Piece (Elt F) S128x1x128 .f32) //
      ∀ (E : Set ℕ) (K : PUnit → sProp 𝕄),
        iprop(owns (c : Thread nD τ) a2 fullShare x ∗ owns (c : Thread nD τ) a3 fullShare xo
            ∗ (iprop(owns (c : Thread nD τ) a2 fullShare x ∗ (∃ f, a3.view.loc (c : Thread nD τ) ↦[a3.view.set]{fullShare} a3.view.writes (Elt F) f L1)) -∗ K ⟨⟩))
          ⊢ wp frame (wpE (defs₀ (F := F)) Variants.none c none) E (cc7__sum_kernel i a2 h2 a3 h3) K } := by
  refine ⟨?_, fun E K => ?run⟩
  case run =>
    simp only [cc7__sum_kernel_eq_skeleton]; unfold cc7__sum_kernel_skel
    unfold owns
    iintro ⟨⟨%f0, %hf0, H0⟩, ⟨%f1, %hf1, H1⟩, Hk⟩
    obtain rfl := h2.eq_unread hf0; obtain rfl := h3.eq_unread hf1
    sl_exec (disch := first | exact hc)
    sl_step
    iapply Hk
    isplitl [H0]
    · iexists _; isplitr; · ipureintro; exact h2.read_unread _
      iexact H0
    iexists _; iexact H1

/-- With the reset taken the stores amount to the update of the zero tile by x, -/
theorem readA (hc : resets (i 1).val) (f) :
    a3.view.read (Elt F) (a3.view.writes (Elt F) f (runA c i a2 h2 a3 h3 x hc).1) = k7_pay2 (k7_pay1 (F := F)) x := by
  rw [View.read_writes_eq_canon _ _ _ (View.cover_of_tiledL (runA c i a2 h2 a3 h3 x hc).1 S128x1x128.size (by sl_kernel_rfl))]
  unfold runA
  dsimp only
  sl_unfold_words
  rw [View.canon_cons_unit_zero (S := S128x1x128) hz3, View.readCov_unit_zero (S := S128x1x128) _ hz3]
  simp only [View.readAt_eq_ld, h2.read_unread, View.ld_unit_zero (S := S128x64x128) hz3]

/-- and without it to the update of the tile's contents xo by x. -/
theorem readB (hc : ¬resets (i 1).val) (xo : Vec F S128x1x128 .f32) (f) :
    a3.view.read (Elt F) (a3.view.writes (Elt F) f (runB c i a2 h2 a3 h3 x hc xo).1) = k7_pay2 xo x := by
  rw [View.read_writes_eq_canon _ _ _ (View.cover_of_tiledL (runB c i a2 h2 a3 h3 x hc xo).1 S128x1x128.size (by sl_kernel_rfl))]
  unfold runB
  dsimp only
  sl_unfold_words
  rw [View.canon_unit_zero hz3]
  simp only [View.readAt_eq_ld, h2.read_unread, h3.read_unread, View.ld_unit_zero (S := S128x1x128) hz3,
    View.ld_unit_zero (S := S128x64x128) hz3]

/-- The body where l = 0, beside resources P, Q it does not touch: the output tile ends at the update of the zero tile by x. -/
theorem step_resets {D0 D1 : Type} (P Q : sProp 𝕄) (hc : resets (i 1).val) (y : D1 → Vec F S128x1x128 .f32) :
    iprop(P ∗ Q ∗ (∃ _d : D0, owns (c : Thread nD τ) a2 fullShare x) ∗ (∃ d : D1, owns (c : Thread nD τ) a3 fullShare (y d)))
      ⊢ wp frame (wpE (defs₀ (F := F)) Variants.none c none) Set.univ (cc7__sum_kernel i a2 h2 a3 h3) (fun _ =>
          iprop(P ∗ Q ∗ owns (c : Thread nD τ) a2 fullShare x ∗ owns (c : Thread nD τ) a3 fullShare (k7_pay2 (k7_pay1 (F := F)) x))) := by
  iintro ⟨HP, HQ, ⟨%d0, H0⟩, ⟨%d1, H1⟩⟩
  iapply ((runA c i a2 h2 a3 h3 x hc).2 Set.univ _)
  isplitl [H0]; · iexact H0
  isplitl [H1]; · iexists _; iexact H1
  iintro ⟨H0, ⟨%e1, H1⟩⟩
  isplitl [HP]; · iexact HP
  isplitl [HQ]; · iexact HQ
  isplitl [H0]; · iexact H0
  unfold owns; iexists _; isplitr
  swap; · iexact H1
  ipureintro; exact readA c i a2 h2 a3 h3 x hc e1

/-- The body where l ≠ 0: the output tile goes from xo to the update of xo by x. -/
theorem step_adds {D0 D1 : Type} (P Q : sProp 𝕄) (hc : ¬resets (i 1).val) (xo : Vec F S128x1x128 .f32) :
    iprop(P ∗ Q ∗ (∃ _d : D0, owns (c : Thread nD τ) a2 fullShare x) ∗ (∃ _d : D1, owns (c : Thread nD τ) a3 fullShare xo))
      ⊢ wp frame (wpE (defs₀ (F := F)) Variants.none c none) Set.univ (cc7__sum_kernel i a2 h2 a3 h3) (fun _ =>
          iprop(P ∗ Q ∗ owns (c : Thread nD τ) a2 fullShare x ∗ owns (c : Thread nD τ) a3 fullShare (k7_pay2 xo x))) := by
  iintro ⟨HP, HQ, ⟨%d0, H0⟩, ⟨%d1, H1⟩⟩
  iapply ((runB c i a2 h2 a3 h3 x hc xo).2 Set.univ _)
  isplitl [H0]; · iexact H0
  isplitl [H1]; · iexact H1
  iintro ⟨H0, ⟨%e1, H1⟩⟩
  isplitl [HP]; · iexact HP
  isplitl [HQ]; · iexact HQ
  isplitl [H0]; · iexact H0
  unfold owns; iexists _; isplitr
  swap; · iexact H1
  ipureintro; exact readB c i a2 h2 a3 h3 x hc xo e1

end Body

/-- The running update over the input tiles x 0, x 1, …, started over at every multiple of L. -/
def acc (N L : ℕ) (x : Fin N → Vec F S128x64x128 .f32) : (n : ℕ) → n < N → Vec F S128x1x128 .f32
  | 0, hn => k7_pay2 (k7_pay1 (F := F)) (x ⟨0, hn⟩)
  | n + 1, hn =>
    if (n + 1) % L = 0 then k7_pay2 (k7_pay1 (F := F)) (x ⟨n + 1, hn⟩)
    else k7_pay2 (acc N L x n (Nat.lt_of_succ_lt hn)) (x ⟨n + 1, hn⟩)

theorem acc_resets {N L : ℕ} (x : Fin N → Vec F S128x64x128 .f32) (t : Fin N) (h0 : t.val % L = 0) :
    acc N L x t.val t.isLt = k7_pay2 (k7_pay1 (F := F)) (x t) := by
  obtain ⟨n, hn⟩ := t
  cases n with
  | zero => rfl
  | succ n => exact if_pos h0

theorem acc_adds {N L : ℕ} (x : Fin N → Vec F S128x64x128 .f32) (t : Fin N) (h0 : ¬t.val % L = 0) :
    acc N L x t.val t.isLt = k7_pay2 (acc N L x (t.val - 1) (Nat.lt_of_le_of_lt (Nat.sub_le _ _) t.isLt)) (x t) := by
  obtain ⟨n, hn⟩ := t
  cases n with
  | zero => exact absurd (Nat.zero_mod _) h0
  | succ n => exact if_neg h0

end Cert.KernelIdeal.Frm

end
-- ==== Proof.KI.Region0.lean ====
import proofs.«131913_j48773648613703_1_alg».proof.Proof.KI.Body

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- A point of this grid as a point of the largest of the eight: the coordinates' values are kept. -/
def up0 (i : grid0.Coords) : grid7.Coords :=
  fun a => ⟨(i a).val, Nat.lt_of_lt_of_le (i a).isLt ((by decide : ∀ a, grid0.bound a ≤ grid7.bound a) a)⟩

set_option maxRecDepth 65536 in
theorem body0_eq (i : grid0.Coords) (a2 : Memref sig .tc .vmem S128x64x128 .f32) (h2 : a2.IsWhole)
    (a3 : Memref sig .tc .vmem S128x1x128 .f32) (h3 : a3.IsWhole) :
    cc0__sum_kernel (F := F) i a2 h2 a3 h3 = cc7__sum_kernel (up0 i) a2 h2 a3 h3 := rfl

/-- The input tile at point t. -/
def iblk0 (c : Dev nD) (t : Fin cfg0.N) : Vec F S128x64x128 .f32 :=
  ((cfg0.win 0).blk t).view.read (Elt F) (V c (Pipeline.arrRef spec0 0))

/-- The branch condition holds exactly at the multiples of L. -/
theorem hcond0 : ∀ t : Fin cfg0.N, resets (up0 (grid0.coords t) 1).val ↔ t.val % 1 = 0 :=
  (by decide +kernel : ∀ t : Fin grid0.N, resets (up0 (grid0.coords t) 1).val ↔ t.val % 1 = 0)

/-- The run's data: the input tiles, and the output tile after each point as the running update. -/
def dat0 (c : Dev nD) : Dat τ (Elt F) Unit ℕ (UR sig nD τ) ℕ cfg0 c where
  A w := V c (Pipeline.arrRef spec0 w)
  after w t := match w with
    | ⟨0, _⟩ => iblk0 V c t
    | ⟨1, _⟩ => acc cfg0.N 1 (iblk0 V c) t.val t.isLt
  Φ _ := Pipeline.ΦA spec0 c
  q _ := fullShare
  owed _ := 0

theorem after0_1 (c : Dev nD) (t : Fin cfg0.N) : (dat0 V c).after 1 t = acc cfg0.N 1 (iblk0 V c) t.val t.isLt := rfl

theorem before0_0 (c : Dev nD) (t : Fin cfg0.N) (d) : (dat0 V c).before 0 t d = iblk0 V c t :=
  ((dat0 V c).before_in_eq_fetched 0 rfl (fun _ => rfl) (fun _ _ _ => rfl) (fun _ => rfl) t d).trans rfl

/-- Off the multiples of L the output tile enters a point as the point before left it. -/
theorem before0_1 (c : Dev nD) (t : Fin cfg0.N) (h0 : ¬t.val % 1 = 0) (d) :
    (dat0 V c).before 1 t d = acc cfg0.N 1 (iblk0 V c) (t.val - 1) (Nat.lt_of_le_of_lt (Nat.sub_le _ _) t.isLt) := by
  have hN : t.val < 4 := lt_of_lt_of_eq t.isLt (show cfg0.N = 4 from N_0)
  first
  | exact absurd (Nat.mod_one _) h0
  | (rw [Dat.before_out_kept _ 1 rfl t (by omega) (Bool.eq_false_iff.mpr fun h => by have := (flush0_1 _).mp h; dsimp only at this; omega)
      (fun _ => rfl) (fun _ _ => rfl)]
     rfl)

theorem sound_body0 (c : Dev nD) (t : Fin cfg0.N) :
    iprop((dat0 V c).Φ t.castSucc ∗ (dat0 V c).owesAt () t.castSucc
      ∗ (∃ d, owns (c : Thread nD τ) (win0_0.stage (cfg0.slots t 0)) fullShare ((dat0 V c).before 0 t d))
      ∗ (∃ d, owns (c : Thread nD τ) (win0_1.stage (cfg0.slots t 1)) fullShare ((dat0 V c).before 1 t d)))
    ⊢ wp frame (wpE (defs₀ (F := F)) Variants.none c none) Set.univ (bodyAt0 t) (fun _ =>
      iprop((dat0 V c).Φ t.castSucc ∗ (dat0 V c).owesAt () t.castSucc
        ∗ owns (c : Thread nD τ) (win0_0.stage (cfg0.slots t 0)) fullShare (iblk0 V c t)
        ∗ owns (c : Thread nD τ) (win0_1.stage (cfg0.slots t 1)) fullShare (acc cfg0.N 1 (iblk0 V c) t.val t.isLt))) := by
  unfold bodyAt0
  simp only [before0_0]
  rw [body0_eq]
  by_cases h0 : t.val % 1 = 0
  · rw [acc_resets (iblk0 V c) t h0]
    exact step_resets c (up0 (grid0.coords t)) _ _ _ _ (iblk0 V c t) _ _ ((hcond0 t).mpr h0) _
  · rw [acc_adds (iblk0 V c) t h0]
    simp only [before0_1 V c t h0]
    exact step_adds c (up0 (grid0.coords t)) _ _ _ _ (iblk0 V c t) _ _ (fun h => h0 ((hcond0 t).mp h)) _

theorem body_obligation0 (c : Dev nD) : BodyObligation (dat0 (F := F) V c) (defs₀ (F := F)) Variants.none () Set.univ := fun t => by
  rw [bigSep_W0, bigSep_W0]
  exact sound_body0 V c t

end Cert.KernelIdeal.Frm

end
-- ==== Proof.KI.Region1.lean ====
import proofs.«131913_j48773648613703_1_alg».proof.Proof.KI.Body

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- A point of this grid as a point of the largest of the eight: the coordinates' values are kept. -/
def up1 (i : grid1.Coords) : grid7.Coords :=
  fun a => ⟨(i a).val, Nat.lt_of_lt_of_le (i a).isLt ((by decide : ∀ a, grid1.bound a ≤ grid7.bound a) a)⟩

set_option maxRecDepth 65536 in
theorem body1_eq (i : grid1.Coords) (a2 : Memref sig .tc .vmem S128x64x128 .f32) (h2 : a2.IsWhole)
    (a3 : Memref sig .tc .vmem S128x1x128 .f32) (h3 : a3.IsWhole) :
    cc1__sum_kernel (F := F) i a2 h2 a3 h3 = cc7__sum_kernel (up1 i) a2 h2 a3 h3 := rfl

/-- The input tile at point t. -/
def iblk1 (c : Dev nD) (t : Fin cfg1.N) : Vec F S128x64x128 .f32 :=
  ((cfg1.win 0).blk t).view.read (Elt F) (V c (Pipeline.arrRef spec1 0))

/-- The branch condition holds exactly at the multiples of L. -/
theorem hcond1 : ∀ t : Fin cfg1.N, resets (up1 (grid1.coords t) 1).val ↔ t.val % 2/-L-/ = 0 :=
  (by decide +kernel : ∀ t : Fin grid1.N, resets (up1 (grid1.coords t) 1).val ↔ t.val % 2/-L-/ = 0)

/-- The run's data: the input tiles, and the output tile after each point as the running update. -/
def dat1 (c : Dev nD) : Dat τ (Elt F) Unit ℕ (UR sig nD τ) ℕ cfg1 c where
  A w := V c (Pipeline.arrRef spec1 w)
  after w t := match w with
    | ⟨0, _⟩ => iblk1 V c t
    | ⟨1, _⟩ => acc cfg1.N 2/-L-/ (iblk1 V c) t.val t.isLt
  Φ _ := Pipeline.ΦA spec1 c
  q _ := fullShare
  owed _ := 0

theorem after1_1 (c : Dev nD) (t : Fin cfg1.N) : (dat1 V c).after 1 t = acc cfg1.N 2/-L-/ (iblk1 V c) t.val t.isLt := rfl

theorem before1_0 (c : Dev nD) (t : Fin cfg1.N) (d) : (dat1 V c).before 0 t d = iblk1 V c t :=
  ((dat1 V c).before_in_eq_fetched 0 rfl (fun _ => rfl) (fun _ _ _ => rfl) (fun _ => rfl) t d).trans rfl

/-- Off the multiples of L the output tile enters a point as the point before left it. -/
theorem before1_1 (c : Dev nD) (t : Fin cfg1.N) (h0 : ¬t.val % 2/-L-/ = 0) (d) :
    (dat1 V c).before 1 t d = acc cfg1.N 2/-L-/ (iblk1 V c) (t.val - 1) (Nat.lt_of_le_of_lt (Nat.sub_le _ _) t.isLt) := by
  have hN : t.val < 8/-N-/ := lt_of_lt_of_eq t.isLt (show cfg1.N = 8/-N-/ from N_1)
  first
  | exact absurd (Nat.mod_one _) h0
  | (rw [Dat.before_out_kept _ 1 rfl t (by omega) (Bool.eq_false_iff.mpr fun h => by have := (flush1_1 _).mp h; dsimp only at this; omega)
      (fun _ => rfl) (fun _ _ => rfl)]
     rfl)

theorem sound_body1 (c : Dev nD) (t : Fin cfg1.N) :
    iprop((dat1 V c).Φ t.castSucc ∗ (dat1 V c).owesAt () t.castSucc
      ∗ (∃ d, owns (c : Thread nD τ) (win1_0.stage (cfg1.slots t 0)) fullShare ((dat1 V c).before 0 t d))
      ∗ (∃ d, owns (c : Thread nD τ) (win1_1.stage (cfg1.slots t 1)) fullShare ((dat1 V c).before 1 t d)))
    ⊢ wp frame (wpE (defs₀ (F := F)) Variants.none c none) Set.univ (bodyAt1 t) (fun _ =>
      iprop((dat1 V c).Φ t.castSucc ∗ (dat1 V c).owesAt () t.castSucc
        ∗ owns (c : Thread nD τ) (win1_0.stage (cfg1.slots t 0)) fullShare (iblk1 V c t)
        ∗ owns (c : Thread nD τ) (win1_1.stage (cfg1.slots t 1)) fullShare (acc cfg1.N 2/-L-/ (iblk1 V c) t.val t.isLt))) := by
  unfold bodyAt1
  simp only [before1_0]
  rw [body1_eq]
  by_cases h0 : t.val % 2/-L-/ = 0
  · rw [acc_resets (iblk1 V c) t h0]
    exact step_resets c (up1 (grid1.coords t)) _ _ _ _ (iblk1 V c t) _ _ ((hcond1 t).mpr h0) _
  · rw [acc_adds (iblk1 V c) t h0]
    simp only [before1_1 V c t h0]
    exact step_adds c (up1 (grid1.coords t)) _ _ _ _ (iblk1 V c t) _ _ (fun h => h0 ((hcond1 t).mp h)) _

theorem body_obligation1 (c : Dev nD) : BodyObligation (dat1 (F := F) V c) (defs₀ (F := F)) Variants.none () Set.univ := fun t => by
  rw [bigSep_W1, bigSep_W1]
  exact sound_body1 V c t

end Cert.KernelIdeal.Frm

end
-- ==== Proof.KI.Region2.lean ====
import proofs.«131913_j48773648613703_1_alg».proof.Proof.KI.Body

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- A point of this grid as a point of the largest of the eight: the coordinates' values are kept. -/
def up2 (i : grid2.Coords) : grid7.Coords :=
  fun a => ⟨(i a).val, Nat.lt_of_lt_of_le (i a).isLt ((by decide : ∀ a, grid2.bound a ≤ grid7.bound a) a)⟩

set_option maxRecDepth 65536 in
theorem body2_eq (i : grid2.Coords) (a2 : Memref sig .tc .vmem S128x64x128 .f32) (h2 : a2.IsWhole)
    (a3 : Memref sig .tc .vmem S128x1x128 .f32) (h3 : a3.IsWhole) :
    cc2__sum_kernel (F := F) i a2 h2 a3 h3 = cc7__sum_kernel (up2 i) a2 h2 a3 h3 := rfl

/-- The input tile at point t. -/
def iblk2 (c : Dev nD) (t : Fin cfg2.N) : Vec F S128x64x128 .f32 :=
  ((cfg2.win 0).blk t).view.read (Elt F) (V c (Pipeline.arrRef spec2 0))

/-- The branch condition holds exactly at the multiples of L. -/
theorem hcond2 : ∀ t : Fin cfg2.N, resets (up2 (grid2.coords t) 1).val ↔ t.val % 3 = 0 :=
  (by decide +kernel : ∀ t : Fin grid2.N, resets (up2 (grid2.coords t) 1).val ↔ t.val % 3 = 0)

/-- The run's data: the input tiles, and the output tile after each point as the running update. -/
def dat2 (c : Dev nD) : Dat τ (Elt F) Unit ℕ (UR sig nD τ) ℕ cfg2 c where
  A w := V c (Pipeline.arrRef spec2 w)
  after w t := match w with
    | ⟨0, _⟩ => iblk2 V c t
    | ⟨1, _⟩ => acc cfg2.N 3 (iblk2 V c) t.val t.isLt
  Φ _ := Pipeline.ΦA spec2 c
  q _ := fullShare
  owed _ := 0

theorem after2_1 (c : Dev nD) (t : Fin cfg2.N) : (dat2 V c).after 1 t = acc cfg2.N 3 (iblk2 V c) t.val t.isLt := rfl

theorem before2_0 (c : Dev nD) (t : Fin cfg2.N) (d) : (dat2 V c).before 0 t d = iblk2 V c t :=
  ((dat2 V c).before_in_eq_fetched 0 rfl (fun _ => rfl) (fun _ _ _ => rfl) (fun _ => rfl) t d).trans rfl

/-- Off the multiples of L the output tile enters a point as the point before left it. -/
theorem before2_1 (c : Dev nD) (t : Fin cfg2.N) (h0 : ¬t.val % 3 = 0) (d) :
    (dat2 V c).before 1 t d = acc cfg2.N 3 (iblk2 V c) (t.val - 1) (Nat.lt_of_le_of_lt (Nat.sub_le _ _) t.isLt) := by
  have hN : t.val < 12 := lt_of_lt_of_eq t.isLt (show cfg2.N = 12 from N_2)
  first
  | exact absurd (Nat.mod_one _) h0
  | (rw [Dat.before_out_kept _ 1 rfl t (by omega) (Bool.eq_false_iff.mpr fun h => by have := (flush2_1 _).mp h; dsimp only at this; omega)
      (fun _ => rfl) (fun _ _ => rfl)]
     rfl)

theorem sound_body2 (c : Dev nD) (t : Fin cfg2.N) :
    iprop((dat2 V c).Φ t.castSucc ∗ (dat2 V c).owesAt () t.castSucc
      ∗ (∃ d, owns (c : Thread nD τ) (win2_0.stage (cfg2.slots t 0)) fullShare ((dat2 V c).before 0 t d))
      ∗ (∃ d, owns (c : Thread nD τ) (win2_1.stage (cfg2.slots t 1)) fullShare ((dat2 V c).before 1 t d)))
    ⊢ wp frame (wpE (defs₀ (F := F)) Variants.none c none) Set.univ (bodyAt2 t) (fun _ =>
      iprop((dat2 V c).Φ t.castSucc ∗ (dat2 V c).owesAt () t.castSucc
        ∗ owns (c : Thread nD τ) (win2_0.stage (cfg2.slots t 0)) fullShare (iblk2 V c t)
        ∗ owns (c : Thread nD τ) (win2_1.stage (cfg2.slots t 1)) fullShare (acc cfg2.N 3 (iblk2 V c) t.val t.isLt))) := by
  unfold bodyAt2
  simp only [before2_0]
  rw [body2_eq]
  by_cases h0 : t.val % 3 = 0
  · rw [acc_resets (iblk2 V c) t h0]
    exact step_resets c (up2 (grid2.coords t)) _ _ _ _ (iblk2 V c t) _ _ ((hcond2 t).mpr h0) _
  · rw [acc_adds (iblk2 V c) t h0]
    simp only [before2_1 V c t h0]
    exact step_adds c (up2 (grid2.coords t)) _ _ _ _ (iblk2 V c t) _ _ (fun h => h0 ((hcond2 t).mp h)) _

theorem body_obligation2 (c : Dev nD) : BodyObligation (dat2 (F := F) V c) (defs₀ (F := F)) Variants.none () Set.univ := fun t => by
  rw [bigSep_W2, bigSep_W2]
  exact sound_body2 V c t

end Cert.KernelIdeal.Frm

end
-- ==== Proof.KI.Region3.lean ====
import proofs.«131913_j48773648613703_1_alg».proof.Proof.KI.Body

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- A point of this grid as a point of the largest of the eight: the coordinates' values are kept. -/
def up3 (i : grid3.Coords) : grid7.Coords :=
  fun a => ⟨(i a).val, Nat.lt_of_lt_of_le (i a).isLt ((by decide : ∀ a, grid3.bound a ≤ grid7.bound a) a)⟩

set_option maxRecDepth 65536 in
theorem body3_eq (i : grid3.Coords) (a2 : Memref sig .tc .vmem S128x64x128 .f32) (h2 : a2.IsWhole)
    (a3 : Memref sig .tc .vmem S128x1x128 .f32) (h3 : a3.IsWhole) :
    cc3__sum_kernel (F := F) i a2 h2 a3 h3 = cc7__sum_kernel (up3 i) a2 h2 a3 h3 := rfl

/-- The input tile at point t. -/
def iblk3 (c : Dev nD) (t : Fin cfg3.N) : Vec F S128x64x128 .f32 :=
  ((cfg3.win 0).blk t).view.read (Elt F) (V c (Pipeline.arrRef spec3 0))

/-- The branch condition holds exactly at the multiples of L. -/
theorem hcond3 : ∀ t : Fin cfg3.N, resets (up3 (grid3.coords t) 1).val ↔ t.val % 4 = 0 :=
  (by decide +kernel : ∀ t : Fin grid3.N, resets (up3 (grid3.coords t) 1).val ↔ t.val % 4 = 0)

/-- The run's data: the input tiles, and the output tile after each point as the running update. -/
def dat3 (c : Dev nD) : Dat τ (Elt F) Unit ℕ (UR sig nD τ) ℕ cfg3 c where
  A w := V c (Pipeline.arrRef spec3 w)
  after w t := match w with
    | ⟨0, _⟩ => iblk3 V c t
    | ⟨1, _⟩ => acc cfg3.N 4 (iblk3 V c) t.val t.isLt
  Φ _ := Pipeline.ΦA spec3 c
  q _ := fullShare
  owed _ := 0

theorem after3_1 (c : Dev nD) (t : Fin cfg3.N) : (dat3 V c).after 1 t = acc cfg3.N 4 (iblk3 V c) t.val t.isLt := rfl

theorem before3_0 (c : Dev nD) (t : Fin cfg3.N) (d) : (dat3 V c).before 0 t d = iblk3 V c t :=
  ((dat3 V c).before_in_eq_fetched 0 rfl (fun _ => rfl) (fun _ _ _ => rfl) (fun _ => rfl) t d).trans rfl

/-- Off the multiples of L the output tile enters a point as the point before left it. -/
theorem before3_1 (c : Dev nD) (t : Fin cfg3.N) (h0 : ¬t.val % 4 = 0) (d) :
    (dat3 V c).before 1 t d = acc cfg3.N 4 (iblk3 V c) (t.val - 1) (Nat.lt_of_le_of_lt (Nat.sub_le _ _) t.isLt) := by
  have hN : t.val < 16 := lt_of_lt_of_eq t.isLt (show cfg3.N = 16 from N_3)
  first
  | exact absurd (Nat.mod_one _) h0
  | (rw [Dat.before_out_kept _ 1 rfl t (by omega) (Bool.eq_false_iff.mpr fun h => by have := (flush3_1 _).mp h; dsimp only at this; omega)
      (fun _ => rfl) (fun _ _ => rfl)]
     rfl)

theorem sound_body3 (c : Dev nD) (t : Fin cfg3.N) :
    iprop((dat3 V c).Φ t.castSucc ∗ (dat3 V c).owesAt () t.castSucc
      ∗ (∃ d, owns (c : Thread nD τ) (win3_0.stage (cfg3.slots t 0)) fullShare ((dat3 V c).before 0 t d))
      ∗ (∃ d, owns (c : Thread nD τ) (win3_1.stage (cfg3.slots t 1)) fullShare ((dat3 V c).before 1 t d)))
    ⊢ wp frame (wpE (defs₀ (F := F)) Variants.none c none) Set.univ (bodyAt3 t) (fun _ =>
      iprop((dat3 V c).Φ t.castSucc ∗ (dat3 V c).owesAt () t.castSucc
        ∗ owns (c : Thread nD τ) (win3_0.stage (cfg3.slots t 0)) fullShare (iblk3 V c t)
        ∗ owns (c : Thread nD τ) (win3_1.stage (cfg3.slots t 1)) fullShare (acc cfg3.N 4 (iblk3 V c) t.val t.isLt))) := by
  unfold bodyAt3
  simp only [before3_0]
  rw [body3_eq]
  by_cases h0 : t.val % 4 = 0
  · rw [acc_resets (iblk3 V c) t h0]
    exact step_resets c (up3 (grid3.coords t)) _ _ _ _ (iblk3 V c t) _ _ ((hcond3 t).mpr h0) _
  · rw [acc_adds (iblk3 V c) t h0]
    simp only [before3_1 V c t h0]
    exact step_adds c (up3 (grid3.coords t)) _ _ _ _ (iblk3 V c t) _ _ (fun h => h0 ((hcond3 t).mp h)) _

theorem body_obligation3 (c : Dev nD) : BodyObligation (dat3 (F := F) V c) (defs₀ (F := F)) Variants.none () Set.univ := fun t => by
  rw [bigSep_W3, bigSep_W3]
  exact sound_body3 V c t

end Cert.KernelIdeal.Frm

end
-- ==== Proof.KI.Region4.lean ====
import proofs.«131913_j48773648613703_1_alg».proof.Proof.KI.Body

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- A point of this grid as a point of the largest of the eight: the coordinates' values are kept. -/
def up4 (i : grid4.Coords) : grid7.Coords :=
  fun a => ⟨(i a).val, Nat.lt_of_lt_of_le (i a).isLt ((by decide : ∀ a, grid4.bound a ≤ grid7.bound a) a)⟩

set_option maxRecDepth 65536 in
theorem body4_eq (i : grid4.Coords) (a2 : Memref sig .tc .vmem S128x64x128 .f32) (h2 : a2.IsWhole)
    (a3 : Memref sig .tc .vmem S128x1x128 .f32) (h3 : a3.IsWhole) :
    cc4__sum_kernel (F := F) i a2 h2 a3 h3 = cc7__sum_kernel (up4 i) a2 h2 a3 h3 := rfl

/-- The input tile at point t. -/
def iblk4 (c : Dev nD) (t : Fin cfg4.N) : Vec F S128x64x128 .f32 :=
  ((cfg4.win 0).blk t).view.read (Elt F) (V c (Pipeline.arrRef spec4 0))

/-- The branch condition holds exactly at the multiples of L. -/
theorem hcond4 : ∀ t : Fin cfg4.N, resets (up4 (grid4.coords t) 1).val ↔ t.val % 5 = 0 :=
  (by decide +kernel : ∀ t : Fin grid4.N, resets (up4 (grid4.coords t) 1).val ↔ t.val % 5 = 0)

/-- The run's data: the input tiles, and the output tile after each point as the running update. -/
def dat4 (c : Dev nD) : Dat τ (Elt F) Unit ℕ (UR sig nD τ) ℕ cfg4 c where
  A w := V c (Pipeline.arrRef spec4 w)
  after w t := match w with
    | ⟨0, _⟩ => iblk4 V c t
    | ⟨1, _⟩ => acc cfg4.N 5 (iblk4 V c) t.val t.isLt
  Φ _ := Pipeline.ΦA spec4 c
  q _ := fullShare
  owed _ := 0

theorem after4_1 (c : Dev nD) (t : Fin cfg4.N) : (dat4 V c).after 1 t = acc cfg4.N 5 (iblk4 V c) t.val t.isLt := rfl

theorem before4_0 (c : Dev nD) (t : Fin cfg4.N) (d) : (dat4 V c).before 0 t d = iblk4 V c t :=
  ((dat4 V c).before_in_eq_fetched 0 rfl (fun _ => rfl) (fun _ _ _ => rfl) (fun _ => rfl) t d).trans rfl

/-- Off the multiples of L the output tile enters a point as the point before left it. -/
theorem before4_1 (c : Dev nD) (t : Fin cfg4.N) (h0 : ¬t.val % 5 = 0) (d) :
    (dat4 V c).before 1 t d = acc cfg4.N 5 (iblk4 V c) (t.val - 1) (Nat.lt_of_le_of_lt (Nat.sub_le _ _) t.isLt) := by
  have hN : t.val < 20 := lt_of_lt_of_eq t.isLt (show cfg4.N = 20 from N_4)
  first
  | exact absurd (Nat.mod_one _) h0
  | (rw [Dat.before_out_kept _ 1 rfl t (by omega) (Bool.eq_false_iff.mpr fun h => by have := (flush4_1 _).mp h; dsimp only at this; omega)
      (fun _ => rfl) (fun _ _ => rfl)]
     rfl)

theorem sound_body4 (c : Dev nD) (t : Fin cfg4.N) :
    iprop((dat4 V c).Φ t.castSucc ∗ (dat4 V c).owesAt () t.castSucc
      ∗ (∃ d, owns (c : Thread nD τ) (win4_0.stage (cfg4.slots t 0)) fullShare ((dat4 V c).before 0 t d))
      ∗ (∃ d, owns (c : Thread nD τ) (win4_1.stage (cfg4.slots t 1)) fullShare ((dat4 V c).before 1 t d)))
    ⊢ wp frame (wpE (defs₀ (F := F)) Variants.none c none) Set.univ (bodyAt4 t) (fun _ =>
      iprop((dat4 V c).Φ t.castSucc ∗ (dat4 V c).owesAt () t.castSucc
        ∗ owns (c : Thread nD τ) (win4_0.stage (cfg4.slots t 0)) fullShare (iblk4 V c t)
        ∗ owns (c : Thread nD τ) (win4_1.stage (cfg4.slots t 1)) fullShare (acc cfg4.N 5 (iblk4 V c) t.val t.isLt))) := by
  unfold bodyAt4
  simp only [before4_0]
  rw [body4_eq]
  by_cases h0 : t.val % 5 = 0
  · rw [acc_resets (iblk4 V c) t h0]
    exact step_resets c (up4 (grid4.coords t)) _ _ _ _ (iblk4 V c t) _ _ ((hcond4 t).mpr h0) _
  · rw [acc_adds (iblk4 V c) t h0]
    simp only [before4_1 V c t h0]
    exact step_adds c (up4 (grid4.coords t)) _ _ _ _ (iblk4 V c t) _ _ (fun h => h0 ((hcond4 t).mp h)) _

theorem body_obligation4 (c : Dev nD) : BodyObligation (dat4 (F := F) V c) (defs₀ (F := F)) Variants.none () Set.univ := fun t => by
  rw [bigSep_W4, bigSep_W4]
  exact sound_body4 V c t

end Cert.KernelIdeal.Frm

end
-- ==== Proof.KI.Region5.lean ====
import proofs.«131913_j48773648613703_1_alg».proof.Proof.KI.Body

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- A point of this grid as a point of the largest of the eight: the coordinates' values are kept. -/
def up5 (i : grid5.Coords) : grid7.Coords :=
  fun a => ⟨(i a).val, Nat.lt_of_lt_of_le (i a).isLt ((by decide : ∀ a, grid5.bound a ≤ grid7.bound a) a)⟩

set_option maxRecDepth 65536 in
theorem body5_eq (i : grid5.Coords) (a2 : Memref sig .tc .vmem S128x64x128 .f32) (h2 : a2.IsWhole)
    (a3 : Memref sig .tc .vmem S128x1x128 .f32) (h3 : a3.IsWhole) :
    cc5__sum_kernel (F := F) i a2 h2 a3 h3 = cc7__sum_kernel (up5 i) a2 h2 a3 h3 := rfl

/-- The input tile at point t. -/
def iblk5 (c : Dev nD) (t : Fin cfg5.N) : Vec F S128x64x128 .f32 :=
  ((cfg5.win 0).blk t).view.read (Elt F) (V c (Pipeline.arrRef spec5 0))

/-- The branch condition holds exactly at the multiples of L. -/
theorem hcond5 : ∀ t : Fin cfg5.N, resets (up5 (grid5.coords t) 1).val ↔ t.val % 6 = 0 :=
  (by decide +kernel : ∀ t : Fin grid5.N, resets (up5 (grid5.coords t) 1).val ↔ t.val % 6 = 0)

/-- The run's data: the input tiles, and the output tile after each point as the running update. -/
def dat5 (c : Dev nD) : Dat τ (Elt F) Unit ℕ (UR sig nD τ) ℕ cfg5 c where
  A w := V c (Pipeline.arrRef spec5 w)
  after w t := match w with
    | ⟨0, _⟩ => iblk5 V c t
    | ⟨1, _⟩ => acc cfg5.N 6 (iblk5 V c) t.val t.isLt
  Φ _ := Pipeline.ΦA spec5 c
  q _ := fullShare
  owed _ := 0

theorem after5_1 (c : Dev nD) (t : Fin cfg5.N) : (dat5 V c).after 1 t = acc cfg5.N 6 (iblk5 V c) t.val t.isLt := rfl

theorem before5_0 (c : Dev nD) (t : Fin cfg5.N) (d) : (dat5 V c).before 0 t d = iblk5 V c t :=
  ((dat5 V c).before_in_eq_fetched 0 rfl (fun _ => rfl) (fun _ _ _ => rfl) (fun _ => rfl) t d).trans rfl

/-- Off the multiples of L the output tile enters a point as the point before left it. -/
theorem before5_1 (c : Dev nD) (t : Fin cfg5.N) (h0 : ¬t.val % 6 = 0) (d) :
    (dat5 V c).before 1 t d = acc cfg5.N 6 (iblk5 V c) (t.val - 1) (Nat.lt_of_le_of_lt (Nat.sub_le _ _) t.isLt) := by
  have hN : t.val < 24 := lt_of_lt_of_eq t.isLt (show cfg5.N = 24 from N_5)
  first
  | exact absurd (Nat.mod_one _) h0
  | (rw [Dat.before_out_kept _ 1 rfl t (by omega) (Bool.eq_false_iff.mpr fun h => by have := (flush5_1 _).mp h; dsimp only at this; omega)
      (fun _ => rfl) (fun _ _ => rfl)]
     rfl)

theorem sound_body5 (c : Dev nD) (t : Fin cfg5.N) :
    iprop((dat5 V c).Φ t.castSucc ∗ (dat5 V c).owesAt () t.castSucc
      ∗ (∃ d, owns (c : Thread nD τ) (win5_0.stage (cfg5.slots t 0)) fullShare ((dat5 V c).before 0 t d))
      ∗ (∃ d, owns (c : Thread nD τ) (win5_1.stage (cfg5.slots t 1)) fullShare ((dat5 V c).before 1 t d)))
    ⊢ wp frame (wpE (defs₀ (F := F)) Variants.none c none) Set.univ (bodyAt5 t) (fun _ =>
      iprop((dat5 V c).Φ t.castSucc ∗ (dat5 V c).owesAt () t.castSucc
        ∗ owns (c : Thread nD τ) (win5_0.stage (cfg5.slots t 0)) fullShare (iblk5 V c t)
        ∗ owns (c : Thread nD τ) (win5_1.stage (cfg5.slots t 1)) fullShare (acc cfg5.N 6 (iblk5 V c) t.val t.isLt))) := by
  unfold bodyAt5
  simp only [before5_0]
  rw [body5_eq]
  by_cases h0 : t.val % 6 = 0
  · rw [acc_resets (iblk5 V c) t h0]
    exact step_resets c (up5 (grid5.coords t)) _ _ _ _ (iblk5 V c t) _ _ ((hcond5 t).mpr h0) _
  · rw [acc_adds (iblk5 V c) t h0]
    simp only [before5_1 V c t h0]
    exact step_adds c (up5 (grid5.coords t)) _ _ _ _ (iblk5 V c t) _ _ (fun h => h0 ((hcond5 t).mp h)) _

theorem body_obligation5 (c : Dev nD) : BodyObligation (dat5 (F := F) V c) (defs₀ (F := F)) Variants.none () Set.univ := fun t => by
  rw [bigSep_W5, bigSep_W5]
  exact sound_body5 V c t

end Cert.KernelIdeal.Frm

end
-- ==== Proof.KI.Region6.lean ====
import proofs.«131913_j48773648613703_1_alg».proof.Proof.KI.Body

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- A point of this grid as a point of the largest of the eight: the coordinates' values are kept. -/
def up6 (i : grid6.Coords) : grid7.Coords :=
  fun a => ⟨(i a).val, Nat.lt_of_lt_of_le (i a).isLt ((by decide : ∀ a, grid6.bound a ≤ grid7.bound a) a)⟩

set_option maxRecDepth 65536 in
theorem body6_eq (i : grid6.Coords) (a2 : Memref sig .tc .vmem S128x64x128 .f32) (h2 : a2.IsWhole)
    (a3 : Memref sig .tc .vmem S128x1x128 .f32) (h3 : a3.IsWhole) :
    cc6__sum_kernel (F := F) i a2 h2 a3 h3 = cc7__sum_kernel (up6 i) a2 h2 a3 h3 := rfl

/-- The input tile at point t. -/
def iblk6 (c : Dev nD) (t : Fin cfg6.N) : Vec F S128x64x128 .f32 :=
  ((cfg6.win 0).blk t).view.read (Elt F) (V c (Pipeline.arrRef spec6 0))

/-- The branch condition holds exactly at the multiples of L. -/
theorem hcond6 : ∀ t : Fin cfg6.N, resets (up6 (grid6.coords t) 1).val ↔ t.val % 7 = 0 :=
  (by decide +kernel : ∀ t : Fin grid6.N, resets (up6 (grid6.coords t) 1).val ↔ t.val % 7 = 0)

/-- The run's data: the input tiles, and the output tile after each point as the running update. -/
def dat6 (c : Dev nD) : Dat τ (Elt F) Unit ℕ (UR sig nD τ) ℕ cfg6 c where
  A w := V c (Pipeline.arrRef spec6 w)
  after w t := match w with
    | ⟨0, _⟩ => iblk6 V c t
    | ⟨1, _⟩ => acc cfg6.N 7 (iblk6 V c) t.val t.isLt
  Φ _ := Pipeline.ΦA spec6 c
  q _ := fullShare
  owed _ := 0

theorem after6_1 (c : Dev nD) (t : Fin cfg6.N) : (dat6 V c).after 1 t = acc cfg6.N 7 (iblk6 V c) t.val t.isLt := rfl

theorem before6_0 (c : Dev nD) (t : Fin cfg6.N) (d) : (dat6 V c).before 0 t d = iblk6 V c t :=
  ((dat6 V c).before_in_eq_fetched 0 rfl (fun _ => rfl) (fun _ _ _ => rfl) (fun _ => rfl) t d).trans rfl

/-- Off the multiples of L the output tile enters a point as the point before left it. -/
theorem before6_1 (c : Dev nD) (t : Fin cfg6.N) (h0 : ¬t.val % 7 = 0) (d) :
    (dat6 V c).before 1 t d = acc cfg6.N 7 (iblk6 V c) (t.val - 1) (Nat.lt_of_le_of_lt (Nat.sub_le _ _) t.isLt) := by
  have hN : t.val < 28 := lt_of_lt_of_eq t.isLt (show cfg6.N = 28 from N_6)
  first
  | exact absurd (Nat.mod_one _) h0
  | (rw [Dat.before_out_kept _ 1 rfl t (by omega) (Bool.eq_false_iff.mpr fun h => by have := (flush6_1 _).mp h; dsimp only at this; omega)
      (fun _ => rfl) (fun _ _ => rfl)]
     rfl)

theorem sound_body6 (c : Dev nD) (t : Fin cfg6.N) :
    iprop((dat6 V c).Φ t.castSucc ∗ (dat6 V c).owesAt () t.castSucc
      ∗ (∃ d, owns (c : Thread nD τ) (win6_0.stage (cfg6.slots t 0)) fullShare ((dat6 V c).before 0 t d))
      ∗ (∃ d, owns (c : Thread nD τ) (win6_1.stage (cfg6.slots t 1)) fullShare ((dat6 V c).before 1 t d)))
    ⊢ wp frame (wpE (defs₀ (F := F)) Variants.none c none) Set.univ (bodyAt6 t) (fun _ =>
      iprop((dat6 V c).Φ t.castSucc ∗ (dat6 V c).owesAt () t.castSucc
        ∗ owns (c : Thread nD τ) (win6_0.stage (cfg6.slots t 0)) fullShare (iblk6 V c t)
        ∗ owns (c : Thread nD τ) (win6_1.stage (cfg6.slots t 1)) fullShare (acc cfg6.N 7 (iblk6 V c) t.val t.isLt))) := by
  unfold bodyAt6
  simp only [before6_0]
  rw [body6_eq]
  by_cases h0 : t.val % 7 = 0
  · rw [acc_resets (iblk6 V c) t h0]
    exact step_resets c (up6 (grid6.coords t)) _ _ _ _ (iblk6 V c t) _ _ ((hcond6 t).mpr h0) _
  · rw [acc_adds (iblk6 V c) t h0]
    simp only [before6_1 V c t h0]
    exact step_adds c (up6 (grid6.coords t)) _ _ _ _ (iblk6 V c t) _ _ (fun h => h0 ((hcond6 t).mp h)) _

theorem body_obligation6 (c : Dev nD) : BodyObligation (dat6 (F := F) V c) (defs₀ (F := F)) Variants.none () Set.univ := fun t => by
  rw [bigSep_W6, bigSep_W6]
  exact sound_body6 V c t

end Cert.KernelIdeal.Frm

end
-- ==== Proof.KI.Region7.lean ====
import proofs.«131913_j48773648613703_1_alg».proof.Proof.KI.Body

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- A point of this grid as a point of the largest of the eight: the coordinates' values are kept. -/
def up7 (i : grid7.Coords) : grid7.Coords :=
  fun a => ⟨(i a).val, Nat.lt_of_lt_of_le (i a).isLt ((by decide : ∀ a, grid7.bound a ≤ grid7.bound a) a)⟩

set_option maxRecDepth 65536 in
theorem body7_eq (i : grid7.Coords) (a2 : Memref sig .tc .vmem S128x64x128 .f32) (h2 : a2.IsWhole)
    (a3 : Memref sig .tc .vmem S128x1x128 .f32) (h3 : a3.IsWhole) :
    cc7__sum_kernel (F := F) i a2 h2 a3 h3 = cc7__sum_kernel (up7 i) a2 h2 a3 h3 := rfl

/-- The input tile at point t. -/
def iblk7 (c : Dev nD) (t : Fin cfg7.N) : Vec F S128x64x128 .f32 :=
  ((cfg7.win 0).blk t).view.read (Elt F) (V c (Pipeline.arrRef spec7 0))

/-- The branch condition holds exactly at the multiples of L. -/
theorem hcond7 : ∀ t : Fin cfg7.N, resets (up7 (grid7.coords t) 1).val ↔ t.val % 8 = 0 :=
  (by decide +kernel : ∀ t : Fin grid7.N, resets (up7 (grid7.coords t) 1).val ↔ t.val % 8 = 0)

/-- The run's data: the input tiles, and the output tile after each point as the running update. -/
def dat7 (c : Dev nD) : Dat τ (Elt F) Unit ℕ (UR sig nD τ) ℕ cfg7 c where
  A w := V c (Pipeline.arrRef spec7 w)
  after w t := match w with
    | ⟨0, _⟩ => iblk7 V c t
    | ⟨1, _⟩ => acc cfg7.N 8 (iblk7 V c) t.val t.isLt
  Φ _ := Pipeline.ΦA spec7 c
  q _ := fullShare
  owed _ := 0

theorem after7_1 (c : Dev nD) (t : Fin cfg7.N) : (dat7 V c).after 1 t = acc cfg7.N 8 (iblk7 V c) t.val t.isLt := rfl

theorem before7_0 (c : Dev nD) (t : Fin cfg7.N) (d) : (dat7 V c).before 0 t d = iblk7 V c t :=
  ((dat7 V c).before_in_eq_fetched 0 rfl (fun _ => rfl) (fun _ _ _ => rfl) (fun _ => rfl) t d).trans rfl

/-- Off the multiples of L the output tile enters a point as the point before left it. -/
theorem before7_1 (c : Dev nD) (t : Fin cfg7.N) (h0 : ¬t.val % 8 = 0) (d) :
    (dat7 V c).before 1 t d = acc cfg7.N 8 (iblk7 V c) (t.val - 1) (Nat.lt_of_le_of_lt (Nat.sub_le _ _) t.isLt) := by
  have hN : t.val < 32 := lt_of_lt_of_eq t.isLt (show cfg7.N = 32 from N_7)
  first
  | exact absurd (Nat.mod_one _) h0
  | (rw [Dat.before_out_kept _ 1 rfl t (by omega) (Bool.eq_false_iff.mpr fun h => by have := (flush7_1 _).mp h; dsimp only at this; omega)
      (fun _ => rfl) (fun _ _ => rfl)]
     rfl)

theorem sound_body7 (c : Dev nD) (t : Fin cfg7.N) :
    iprop((dat7 V c).Φ t.castSucc ∗ (dat7 V c).owesAt () t.castSucc
      ∗ (∃ d, owns (c : Thread nD τ) (win7_0.stage (cfg7.slots t 0)) fullShare ((dat7 V c).before 0 t d))
      ∗ (∃ d, owns (c : Thread nD τ) (win7_1.stage (cfg7.slots t 1)) fullShare ((dat7 V c).before 1 t d)))
    ⊢ wp frame (wpE (defs₀ (F := F)) Variants.none c none) Set.univ (bodyAt7 t) (fun _ =>
      iprop((dat7 V c).Φ t.castSucc ∗ (dat7 V c).owesAt () t.castSucc
        ∗ owns (c : Thread nD τ) (win7_0.stage (cfg7.slots t 0)) fullShare (iblk7 V c t)
        ∗ owns (c : Thread nD τ) (win7_1.stage (cfg7.slots t 1)) fullShare (acc cfg7.N 8 (iblk7 V c) t.val t.isLt))) := by
  unfold bodyAt7
  simp only [before7_0]
  rw [body7_eq]
  by_cases h0 : t.val % 8 = 0
  · rw [acc_resets (iblk7 V c) t h0]
    exact step_resets c (up7 (grid7.coords t)) _ _ _ _ (iblk7 V c t) _ _ ((hcond7 t).mpr h0) _
  · rw [acc_adds (iblk7 V c) t h0]
    simp only [before7_1 V c t h0]
    exact step_adds c (up7 (grid7.coords t)) _ _ _ _ (iblk7 V c t) _ _ (fun h => h0 ((hcond7 t).mp h)) _

theorem body_obligation7 (c : Dev nD) : BodyObligation (dat7 (F := F) V c) (defs₀ (F := F)) Variants.none () Set.univ := fun t => by
  rw [bigSep_W7, bigSep_W7]
  exact sound_body7 V c t

end Cert.KernelIdeal.Frm

end
-- ==== Proof.KI.Pdats.lean ====
import proofs.«131913_j48773648613703_1_alg».proof.Proof.KI.Region0
import proofs.«131913_j48773648613703_1_alg».proof.Proof.KI.Region1
import proofs.«131913_j48773648613703_1_alg».proof.Proof.KI.Region2
import proofs.«131913_j48773648613703_1_alg».proof.Proof.KI.Region3
import proofs.«131913_j48773648613703_1_alg».proof.Proof.KI.Region4
import proofs.«131913_j48773648613703_1_alg».proof.Proof.KI.Region5
import proofs.«131913_j48773648613703_1_alg».proof.Proof.KI.Region6
import proofs.«131913_j48773648613703_1_alg».proof.Proof.KI.Region7

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core c's buffers at launch, -/
abbrev W0 : Dev nD → Valuation τ sig (Elt F) := fun c b => m ((c : Dev nD), b)
/-- read at the core's own references. -/
abbrev VL : (c : Dev nD) → (b : Ref sig .tc) → Buf (Elt F) ((c : Thread nD τ).loc b) := fun c b => W0 m c b

abbrev adm : (p : Fin 8) → (pcfgs (F := F) p).Adm := fun p => (cfgs p).toPCfg_adm

/-- The eight regions' data, all at the launch contents: their arrays are distinct. -/
def pdats : (p : Fin 8) → (c : Dev nD) → Dat τ (Elt F) Unit ℕ (UR sig nD τ) ℕ (Pipeline.pin (pcfgs (F := F)) adm p) c
  | ⟨0, _⟩ => fun c => dat0 (VL m) c
  | ⟨1, _⟩ => fun c => dat1 (VL m) c
  | ⟨2, _⟩ => fun c => dat2 (VL m) c
  | ⟨3, _⟩ => fun c => dat3 (VL m) c
  | ⟨4, _⟩ => fun c => dat4 (VL m) c
  | ⟨5, _⟩ => fun c => dat5 (VL m) c
  | ⟨6, _⟩ => fun c => dat6 (VL m) c
  | ⟨7, _⟩ => fun c => dat7 (VL m) c

abbrev 𝒱₀ : Variants := Variants.none
abbrev L : GSem nD τ sig → Finset Unit := fun _ => ∅
abbrev lv : GSem nD τ sig → Unit → ℕ := fun _ _ => 0
/-- What every segment carries beside the buffers: the generator register at some state, nothing owed. -/
abbrev R (c : Dev nD) : sProp 𝕄 := iprop((∃ r, prngReg c r) ∗ ∃ W, owes (c : Thread nD τ) (0 : CellTallies nD τ sig Unit) W)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.KernelIdeal.Frm

end
-- ==== Proof.KI.Seg.lean ====
import proofs.«131913_j48773648613703_1_alg».proof.Proof.KI.Pdats
import Idealize.ShloMosaic.Lib.Pipeline.RegionsLoop
import Idealize.ShloMosaic.Lib.Pipeline.FrameSuffix

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation cellOf)

variable {F : FTy → Type} [FloatOps F]

local notation "𝕄" => MT nD τ sig Unit (Elt F) ℕ (UR sig nD τ) ℕ

variable (m : (ℓ : Loc nD τ sig) → Buf (Elt F) ℓ)
variable (Win : Dev nD → Valuation τ sig (Elt F))
variable (p : Fin 8)

theorem launch : Pipeline.LaunchFacts (nD := nD) (τ := τ) cfgs p := by
  fin_cases p
  exacts [launch0, launch1, launch2, launch3, launch4, launch5, launch6, launch7]

theorem pdats_body (c : Dev nD) : BodyObligation (pdats m p c) (defs₀ (F := F)) Variants.none () Set.univ := by
  fin_cases p
  exacts [body_obligation0 (VL m) c, body_obligation1 (VL m) c, body_obligation2 (VL m) c, body_obligation3 (VL m) c,
    body_obligation4 (VL m) c, body_obligation5 (VL m) c, body_obligation6 (VL m) c, body_obligation7 (VL m) c]

/-- What the eight regions' data share: the launch contents, one invariant, full shares, no dues. -/
theorem pdats_A (c : Dev nD) (w : Fin (cfgs p).W) : (pdats m p c).A w = VL m c (Pipeline.arrRef (cfgs p).spec w) := by
  fin_cases p <;> rfl

theorem pdats_Φ (c : Dev nD) (j) : (pdats m p c).Φ j = Pipeline.ΦA (cfgs p).spec c := by
  fin_cases p <;> rfl

theorem pdats_share (c : Dev nD) : ∀ w, (pdats m p c).share w = fullShare := by
  fin_cases p <;> exact (Dat.share_full _ fun _ => rfl)

theorem pdats_owed (c : Dev nD) (t) : (pdats m p c).owed t = 0 := by
  fin_cases p <;> rfl

/-- Owing nothing is what the data ask at the first point and leave at the last. -/
theorem owes_in (c : Dev nD) :
    iprop(∃ W, owes (c : Thread nD τ) (0 : CellTallies nD τ sig Unit) W) ⊢ ((pdats m p c).owesAt () 0 : sProp 𝕄) := by
  fin_cases p <;>
  · unfold Pipeline.Dat.owesAt Pipeline.owesWithin
    iintro ⟨%W, HO⟩; iexists W; isplitr; · ipureintro; exact fun _ _ => Or.inl trivial
    iexact HO

theorem owes_out (c : Dev nD) :
    ((pdats m p c).owesAt () (Fin.last _) : sProp 𝕄) ⊢ iprop(∃ W, owes (c : Thread nD τ) (0 : CellTallies nD τ sig Unit) W) := by
  fin_cases p <;>
  · unfold Pipeline.Dat.owesAt Pipeline.owesWithin
    iintro ⟨%W, -, HO⟩; iexists W; iexact HO

/-- Region p's exit contents: its two arrays at their final contents, every other buffer as entered. -/
def Wout (c : Dev nD) : Valuation τ sig (Elt F) :=
  Pipeline.withArrays (cfgs p).spec c (Win c) fun w => (pdats m p c).arrAt w (cfgs p).N

theorem Wout_arr (c : Dev nD) (w : Fin (cfgs p).W) :
    Wout m Win p c (Proc.devRef .tc (Pipeline.arrRef (cfgs p).spec w)) = (pdats m p c).arrAt w (cfgs p).N := by
  unfold Wout; exact Pipeline.withArrays_arr _ (launch p).win.arr_inj c _ _ w

theorem Wout_of_ne (c : Dev nD) (b : Ref sig .tc) (hb : ∀ w, Pipeline.arrRef (cfgs p).spec w ≠ b) :
    Wout m Win p c (Proc.devRef .tc b) = Win c (Proc.devRef .tc b) := by
  unfold Wout; exact Pipeline.withArrays_of_ne _ c _ _ b hb

set_option backward.isDefEq.respectTransparency.types false in
/-- Region p as a segment of the run: entered at contents Win that agree with the launch on its arrays, left at Wout. -/
def reg (hin : ∀ c w, (pdats m p c).A w = (fun b : Ref sig .tc => Win c b) (Pipeline.arrRef (cfgs p).spec w)) :
    Pipeline.RegionSeg (pcfgs (F := F)) adm (pdats m) () defs₀ 𝒱₀ L lv p where
  win := (launch p).win.to₀
  block_pos := (launch p).block_pos
  stage_whole := (launch p).stage_whole
  K := PEmpty
  osem k := k.elim
  ho := Pipeline.OwnSemFacts.none _
  hbody c := (pdats_body m p c).loose
  hwaits := Pipeline.hwaits_of_owed_zero _ _ _ _ L lv p (pdats_owed m p)
  pre c := iprop(StableHlo.held (c : Thread nD τ) (Pipeline.ucRefs τ sig) (Win c) ∗ R c)
  post c := iprop(StableHlo.held (c : Thread nD τ) (Pipeline.ucRefs τ sig) (Wout m Win p c) ∗ R c)
  X c := iprop(∃ r, prngReg c r)
  Y c := iprop(∃ r, prngReg c r)
  Z c := Pipeline.unscopedRest (Ix := Unit) (Name := ℕ) (U := UR sig nD τ) (Lvl := ℕ) (cfgs p).spec c (fun b : Ref sig .tc => Win c b)
  hentry c := by
    rw [Pipeline.ownSems0_none]
    have hsplit := Pipeline.arrays_of_unscopedBufs (p := p) (pcfgs (F := F)) adm (pdats m) (launch p).win (launch p).arr_whole c
      (pdats_share m p c) (fun b : Ref sig .tc => Win c b) (hin c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply (owes_in m p c); iexact HO
    isplitl [Hp]; · iexact Hp
    iexact Hrest
  hin c := by
    rw [pdats_Φ m p c 0]; unfold Pipeline.ΦA
    iintro ⟨Hp, -, Hr⟩
    isplitl [Hr]; · iexact Hr
    iexact Hp
  hout c := by
    rw [Pipeline.ownSems0_none, pdats_Φ m p c (Fin.last _)]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      (launch p).win (launch p).arr_whole c (pdats m) (pdats_share m p c)
      (fun b : Ref sig .tc => Win c b) (fun b : Ref sig .tc => Wout m Win p c b) ((pdats m p c).arrAt · (cfgs p).N)
      (fun w => (Wout_arr m Win p c w).symm)
      (fun b hb => Wout_of_ne m Win p c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    iapply (owes_out m p c); iexact HO

end Cert.KernelIdeal.Frm

end
-- ==== Proof.KI.Keep.lean ====
import proofs.«131913_j48773648613703_1_alg».proof.Proof.KI.Seg

noncomputable section

namespace Cert.KernelIdeal.Frm

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ)

/-- The eight pallas_calls read one argument array and write one result array each, all distinct. -/
theorem arr_distinct : ∀ (j p : Fin 8), j ≠ p → ∀ (w' : Fin (cfgs j).W) (w : Fin (cfgs p).W),
    Pipeline.arrRef (cfgs j).spec w' ≠ Pipeline.arrRef (cfgs p).spec w := by decide

/-- The buffers' contents at the boundary before region k (k = 8: after the last region). -/
def Wn : ℕ → Dev nD → Valuation τ sig (Elt F)
  | 0 => W0 m
  | k + 1 => if h : k < 8 then Wout m (Wn k) ⟨k, h⟩ else Wn k

/-- A buffer that is no array of the regions before region k is, at that boundary, as launched. -/
theorem Wn_of_ne (c : Dev nD) (b : Ref sig .tc) : ∀ k, (∀ (j : Fin 8), j.val < k → ∀ w, Pipeline.arrRef (cfgs j).spec w ≠ b) →
    Wn m k c (Proc.devRef .tc b) = W0 m c (Proc.devRef .tc b)
  | 0, _ => rfl
  | k + 1, hb => by
    have ih := Wn_of_ne c b k fun j hj => hb j (Nat.lt_succ_of_lt hj)
    unfold Wn
    split
    · next h => exact (Wout_of_ne m _ ⟨k, h⟩ c b (hb ⟨k, h⟩ (Nat.lt_succ_self k))).trans ih
    · exact ih

/-- From region j's exit on its arrays keep their final contents: no later region has them. -/
theorem Wn_arr (c : Dev nD) (j : Fin 8) (w : Fin (cfgs j).W) : ∀ k, j.val < k → k ≤ 8 →
    Wn m k c (Proc.devRef .tc (Pipeline.arrRef (cfgs j).spec w)) = (pdats m j c).arrAt w (cfgs j).N
  | k + 1, hj, hk => by
    have h : k < 8 := hk
    unfold Wn
    rw [dif_pos h]
    rcases Nat.lt_succ_iff_lt_or_eq.mp hj with hlt | heq
    · exact (Wout_of_ne m _ ⟨k, h⟩ c _ fun w' => arr_distinct ⟨k, h⟩ j (Fin.ne_of_val_ne (ne_of_gt hlt)) w' w).trans
        (Wn_arr c j w k hlt (Nat.le_of_lt h))
    · obtain rfl : j = ⟨k, h⟩ := Fin.ext heq
      exact Wout_arr m _ ⟨k, h⟩ c w

/-- Region p finds its arrays as launched. -/
theorem hin (p : Fin 8) (c : Dev nD) (w : Fin (cfgs p).W) :
    (pdats m p c).A w = (fun b : Ref sig .tc => Wn m p.val c b) (Pipeline.arrRef (cfgs p).spec w) :=
  (pdats_A m p c w).trans (Wn_of_ne m c _ p.val fun j hj w' => arr_distinct j p (Fin.ne_of_val_ne (Nat.ne_of_lt hj)) w' w).symm

/-- After the last region an input array is as launched. -/
theorem W8_in (c : Dev nD) (j : Fin 8) (w : Fin (cfgs j).W) (hw : ((cfgs j).win w).isOut = false) :
    Wn m 8 c (Proc.devRef .tc (Pipeline.arrRef (cfgs j).spec w)) = m ((c : Thread nD τ).loc (Pipeline.arrRef (cfgs j).spec w)) :=
  (Wn_arr m c j w 8 j.isLt le_rfl).trans (((pdats m j c).arrAt_in w hw _).trans (pdats_A m j c w))

end Cert.KernelIdeal.Frm

end
-- ==== Proof.KI.Run.lean ====
import proofs.«131913_j48773648613703_1_alg».proof.Proof.KI.Keep
import proofs.«131913_j48773648613703_1_alg».proof.Proof.Gen.KernelIdeal.Regions
import Idealize.ShloMosaic.Lib.StableHlo.Run

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The closing concatenate as a segment from the last region's exit. -/
abbrev hseg8 : Pipeline.HostSeg (Name := ℕ) (U := UR sig nD τ) (pcfgs (F := F)) defs₀ 𝒱₀ L lv :=
  Pipeline.HostSeg.ofOps _ _ _ _ _ (Pipeline.ucRefs τ sig) hostOps8
    (fun op h => Pipeline.sub_ucRefs op ((List.forall_iff_forall_mem.mp hostOps8_sub) op h))
    (fun op h => (List.forall_iff_forall_mem.mp hostOps8_fresh) op h) (Wn m 8) R

/-- The buffers' contents at the end. -/
abbrev W9 (c : Dev nD) : Valuation τ sig (Elt F) := StableHlo.after hostOps8 (Wn m 8 c)

/-- The program's nine segments: the eight regions, each entered from the one before, then the concatenate. -/
abbrev segs : List (Pipeline.Seg (pcfgs (F := F)) adm (pdats m) () defs₀ 𝒱₀ L lv) :=
  [ .region (reg m (Wn m 0) 0 (hin m 0)), .region (reg m (Wn m 1) 1 (hin m 1)), .region (reg m (Wn m 2) 2 (hin m 2)),
    .region (reg m (Wn m 3) 3 (hin m 3)), .region (reg m (Wn m 4) 4 (hin m 4)), .region (reg m (Wn m 5) 5 (hin m 5)),
    .region (reg m (Wn m 6) 6 (hin m 6)), .region (reg m (Wn m 7) 7 (hin m 7)), .host (hseg8 m) ]

theorem main_run (c : Dev nD) : main (F := F) c = Pipeline.Seg.run (segs m) :=
  main_segs adm (pdats m) () 𝒱₀ L lv (hseg8 m) (reg m (Wn m 0) 0 (hin m 0)) (reg m (Wn m 1) 1 (hin m 1)) (reg m (Wn m 2) 2 (hin m 2))
    (reg m (Wn m 3) 3 (hin m 3)) (reg m (Wn m 4) 4 (hin m 4)) (reg m (Wn m 5) 5 (hin m 5)) (reg m (Wn m 6) 6 (hin m 6))
    (reg m (Wn m 7) 7 (hin m 7)) rfl c

set_option backward.isDefEq.respectTransparency.types false in
/-- Every weakly fair execution terminates with every buffer at the last boundary's contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W9 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => iprop(StableHlo.held (c : Thread nD τ) (Pipeline.ucRefs τ sig) (W9 m c) ∗ ∃ r, prngReg c r))
    (hch := ⟨fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (StableHlo.after hostOps8 (Wn m 8 c))
          ∗ (∃ r, prngReg c r) ∗ ∃ W, owes (c : Thread nD τ) (0 : CellTallies nD τ sig Unit) W) ⊢ _
        iintro ⟨Hh, Hp, Ho⟩
        isplitl [Hh Hp]
        · isplitl [Hh] <;> iassumption
        iexact Ho⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m c b)
    (hfin := fun c s' => by
      iintro ⟨⟨Hh, -⟩, HSI⟩
      unfold StableHlo.held
      imodintro
      iapply (pointsTo_read_all (Pipeline.ucRefs τ sig) (fun b => (((c : Thread nD τ)).1, b)) (W9 m c) s')
      isplitl [Hh] <;> iassumption)
    (hQ := fun s h => h)

/-- An input array ends as launched: the concatenate does not write it either. -/
theorem W9_in (c : Dev nD) (j : Fin 8) (w : Fin (cfgs j).W) (hw : ((cfgs j).win w).isOut = false)
    (hb : Pipeline.arrRef (cfgs j).spec w ∉ hostOps8_W) :
    W9 m c (Proc.devRef .tc (Pipeline.arrRef (cfgs j).spec w)) = m ((c : Thread nD τ).loc (Pipeline.arrRef (cfgs j).spec w)) :=
  (StableHlo.after_of_writes_sub hostOps8 _ hostOps8_writes hb).trans (W8_in m c j w hw)

/-- Every argument array ends as launched. -/
abbrev Kept (s : (ℓ : Loc nD τ sig) → Buf (Elt F) ℓ) (c : Dev nD) : Prop :=
  s ((c.tc : Thread nD τ).loc main_arg0) = m ((c.tc : Thread nD τ).loc main_arg0)
  ∧ s ((c.tc : Thread nD τ).loc main_arg1) = m ((c.tc : Thread nD τ).loc main_arg1)
  ∧ s ((c.tc : Thread nD τ).loc main_arg2) = m ((c.tc : Thread nD τ).loc main_arg2)
  ∧ s ((c.tc : Thread nD τ).loc main_arg3) = m ((c.tc : Thread nD τ).loc main_arg3)
  ∧ s ((c.tc : Thread nD τ).loc main_arg4) = m ((c.tc : Thread nD τ).loc main_arg4)
  ∧ s ((c.tc : Thread nD τ).loc main_arg5) = m ((c.tc : Thread nD τ).loc main_arg5)
  ∧ s ((c.tc : Thread nD τ).loc main_arg6) = m ((c.tc : Thread nD τ).loc main_arg6)
  ∧ s ((c.tc : Thread nD τ).loc main_arg7) = m ((c.tc : Thread nD τ).loc main_arg7)

theorem kept (s : (ℓ : Loc nD τ sig) → Buf (Elt F) ℓ)
    (h : ∀ c : Dev nD, ∀ b ∈ Pipeline.ucRefs τ sig, s (((c : Thread nD τ)).1, b) = W9 m c b) (c : Dev nD) : Kept m s c :=
  ⟨(h c _ (mem_uc main_arg0 (by decide))).trans (W9_in m c 0 (0 : Fin 2) rfl (by decide)),
    (h c _ (mem_uc main_arg1 (by decide))).trans (W9_in m c 1 (0 : Fin 2) rfl (by decide)),
    (h c _ (mem_uc main_arg2 (by decide))).trans (W9_in m c 2 (0 : Fin 2) rfl (by decide)),
    (h c _ (mem_uc main_arg3 (by decide))).trans (W9_in m c 3 (0 : Fin 2) rfl (by decide)),
    (h c _ (mem_uc main_arg4 (by decide))).trans (W9_in m c 4 (0 : Fin 2) rfl (by decide)),
    (h c _ (mem_uc main_arg5 (by decide))).trans (W9_in m c 5 (0 : Fin 2) rfl (by decide)),
    (h c _ (mem_uc main_arg6 (by decide))).trans (W9_in m c 6 (0 : Fin 2) rfl (by decide)),
    (h c _ (mem_uc main_arg7 (by decide))).trans (W9_in m c 7 (0 : Fin 2) rfl (by decide))⟩

/-- The frame: the program runs to the end, nothing faults, every argument array ends as launched. -/
theorem frame : θ_run defs (onTc (τ := τ) (main (F := F))) ⟨m, fun _ => 0, ρ⟩ (fun r => ∀ c : Dev nD, Kept m r.2.mem c) :=
  (θ_run defs _ _).mono (fun r h c => kept m r.2.mem h c) (run_all m ρ)

end Cert.KernelIdeal.Frm

end
-- ==== Proof.KI.Sum.lean ====
import proofs.«131913_j48773648613703_1_alg».proof.Proof.KI.Body
import Idealize.ShloMosaic.Lib.ValueIdx
import Idealize.ShloMosaic.PureOps.Ideal.Laws

set_option maxRecDepth 16384

noncomputable section

namespace Cert.KernelIdeal.Val

open Cert.KernelIdeal Cert.KernelIdeal.Gen Cert.KernelIdeal.Frm
open Idealize.ShloMosaic Idealize.ShloMosaic.TcCoe Idealize.ShloMosaic.ValueIdx
open scoped BigOperators

/-- The update at an element: what the tile held there plus the sum of the input tile's 64 rows. -/
theorem upd_at (v3 : Vec Ideal S128x1x128 .f32) (v5 : Vec Ideal S128x64x128 .f32) (p : Fin 128) (z : Fin 1) (d : Fin 128) :
    k7_pay2 (F := Ideal) v3 v5 (ix3 p z d) = v3 (ix3 p z d) + ∑ r : Fin 64, v5 (ix3 p r d) := by
  unfold k7_pay2
  refine (addf_apply _ _ (ix3 p z d)).trans ?_
  refine congrArg₂ (· + ·) ?_ ?_
  · exact congrFun (shapeCast_self v3 _) (ix3 p z d)
  · refine (shapeCast_apply _ shapeCasts_S128x128_S128x1x128 (ix3 p z d) (ix2 p d) ?_).trans ?_
    · rw [Shape.rowMajor_val_two, Shape.rowMajor_val_three]
      have hz : z.val = 0 := by omega
      show p.val * 128 + d.val = (p.val * 1 + z.val) * 128 + d.val
      omega
    · refine (Ideal.multiReduction_add_single v5 _ reduces_S128x64x128_S128x128 _ _ (ix2 p d)).trans ?_
      exact Finset.sum_congr rfl fun r _ => congrArg v5 (funext fun a => Fin.ext (by
        match a with | ⟨0, _⟩ => rfl | ⟨1, _⟩ => rfl | ⟨2, _⟩ => rfl))

theorem zero_at (j : S128x1x128.Idx) : k7_pay1 (F := Ideal) j = 0 := by
  unfold k7_pay1
  exact Ideal.ofBits_zero_f32

/-- A step to a non-multiple of L keeps the quotient by L and advances the remainder. -/
theorem step_div_mod {L n : ℕ} (hL : 0 < L) (h : ¬(n + 1) % L = 0) : (n + 1) / L = n / L ∧ (n + 1) % L = n % L + 1 := by
  have h1 := Nat.div_add_mod n L
  have h2 := Nat.mod_lt n hL
  have hr : n % L + 1 < L := by
    refine lt_of_le_of_ne h2 fun e => h ?_
    rw [show n + 1 = L * (n / L + 1) by rw [Nat.mul_add, Nat.mul_one]; omega]
    exact Nat.mul_mod_right _ _
  have e : n + 1 = L * (n / L) + (n % L + 1) := by omega
  exact ⟨by rw [e, Nat.mul_add_div hL, Nat.div_eq_of_lt hr, Nat.add_zero], by rw [e, Nat.mul_add_mod, Nat.mod_eq_of_lt hr]⟩

/-- If tile t's row sums are positions 64 (t % L) .. of rows 128 (t / L) .., the running update after n is the sum of the first 64 (n % L + 1) positions: ranges append. -/
theorem acc_eq {N L : ℕ} (hL : 0 < L) (x : Fin N → Vec Ideal S128x64x128 .f32) (row : ℕ → Fin 128 → ℕ → Ideal .f32)
    (hx : ∀ (t : Fin N) (p d : Fin 128), ∑ r : Fin 64, x t (ix3 p r d)
      = ∑ r ∈ Finset.range 64, row (128 * (t.val / L) + p.val) d (64 * (t.val % L) + r)) :
    ∀ (n : ℕ) (h : n < N) (p : Fin 128) (z : Fin 1) (d : Fin 128),
      acc N L x n h (ix3 p z d) = ∑ k ∈ Finset.range (64 * (n % L + 1)), row (128 * (n / L) + p.val) d k := by
  have first : ∀ (t : Fin N), t.val % L = 0 → ∀ (p : Fin 128) (z : Fin 1) (d : Fin 128),
      acc N L x t.val t.isLt (ix3 p z d) = ∑ k ∈ Finset.range (64 * (t.val % L + 1)), row (128 * (t.val / L) + p.val) d k := by
    intro t h0 p z d
    refine (congrFun (acc_resets x t h0) _).trans ((upd_at _ _ p z d).trans ?_)
    rw [zero_at, zero_add, hx t p d, h0]
    simp only [Nat.mul_zero, Nat.zero_add, Nat.mul_one]
  intro n
  induction n with
  | zero => exact fun h => first ⟨0, h⟩ (Nat.zero_mod _)
  | succ n ih =>
    intro h p z d
    by_cases h0 : (n + 1) % L = 0
    · exact first ⟨n + 1, h⟩ h0 p z d
    · have hs : acc N L x (n + 1) h (ix3 p z d)
          = acc N L x n (Nat.lt_of_succ_lt h) (ix3 p z d) + ∑ r : Fin 64, x ⟨n + 1, h⟩ (ix3 p r d) :=
        (congrFun (acc_adds x ⟨n + 1, h⟩ h0) _).trans (upd_at _ _ p z d)
      obtain ⟨hdiv, hmod⟩ := step_div_mod hL h0
      rw [hs, ih (Nat.lt_of_succ_lt h) p z d, hx ⟨n + 1, h⟩ p d]
      dsimp only
      rw [hdiv, hmod, show 64 * (n % L + 1 + 1) = 64 * (n % L + 1) + 64 by omega, Finset.sum_range_add]

end Cert.KernelIdeal.Val

end
-- ==== Proof.KI.Value0.lean ====
import proofs.«131913_j48773648613703_1_alg».proof.Proof.KI.Region0
import proofs.«131913_j48773648613703_1_alg».proof.Proof.KI.Sum
import proofs.«131913_j48773648613703_1_alg».proof.Proof.Gen.ReferenceIdeal.Read
import Idealize.ShloMosaic.Lib.Pipeline.Value

set_option maxRecDepth 16384

noncomputable section

namespace Cert.KernelIdeal.Val

open Cert.KernelIdeal Cert.KernelIdeal.Gen Cert.KernelIdeal.Frm
open Idealize.ShloMosaic Idealize.ShloMosaic.TcCoe Idealize.ShloMosaic.ValueIdx
open Idealize.ShloMosaic.Pipeline (Dat)
open scoped BigOperators

section AnyValues

variable {F : FTy → Type} [FloatOps F]
variable (V : (c : Dev nD) → (b : Ref sig .tc) → Buf (Elt F) ((c : Thread nD τ).loc b))

abbrev xarr0 (c : Dev nD) : Vec F S512x64x128 .f32 := V c main_arg0

/-- Point t reads batch tile t / L, sequence tile t % L, -/
theorem inIdx0 : ∀ t : Fin cfg0.N, win0_0.index t 0 = t.val / 1 ∧ win0_0.index t 1 = t.val % 1 ∧ win0_0.index t 2 = 0 :=
  (by decide +kernel : ∀ t : Fin grid0.N, win0_0.index t 0 = t.val / 1 ∧ win0_0.index t 1 = t.val % 1 ∧ win0_0.index t 2 = 0)

/-- and writes batch tile t / L. -/
theorem outIdx0 : ∀ t : Fin cfg0.N, win0_1.index t 0 = t.val / 1 ∧ win0_1.index t 1 = 0 ∧ win0_1.index t 2 = 0 :=
  (by decide +kernel : ∀ t : Fin grid0.N, win0_1.index t 0 = t.val / 1 ∧ win0_1.index t 1 = 0 ∧ win0_1.index t 2 = 0)

theorem xblk_at0 (c : Dev nD) (t : Fin cfg0.N) (p : Fin 128) (r : Fin 64) (d : Fin 128) (b : Fin 512) (k : Fin 64)
    (hb : b.val = 128 * (t.val / 1) + p.val) (hk : k.val = 64 * (t.val % 1) + r.val) :
    iblk0 V c t (ix3 p r d) = xarr0 V c (ix3 b k d) := by
  obtain ⟨hi_b, hi_s, hi_l⟩ := inIdx0 t
  unfold iblk0
  rw [View.read_apply]
  show V c main_arg0 _ = V c main_arg0 _
  congr 1
  funext a
  apply Fin.ext
  match a with
  | ⟨0, _⟩ => show win0_0.index t 0 * 128 + 1 * p.val = b.val; rw [hi_b, hb]; omega
  | ⟨1, _⟩ => show win0_0.index t 1 * 64 + 1 * r.val = k.val; rw [hi_s, hk]; omega
  | ⟨2, _⟩ => show win0_0.index t 2 * 128 + 1 * d.val = d.val; rw [hi_l]; omega

theorem oblk_at0 (c : Dev nD) (t : Fin cfg0.N) (G : Vec F S512x1x128 .f32) (p : Fin 128) (z : Fin 1) (d : Fin 128) (b : Fin 512)
    (hb : b.val = 128 * (t.val / 1) + p.val) :
    ((cfg0.win 1).blk t).view.read (Elt F) G (ix3 p z d) = G (ix3 b z d) := by
  obtain ⟨hi_b, hi_s, hi_l⟩ := outIdx0 t
  rw [View.read_apply]
  show G _ = G _
  congr 1
  funext a
  apply Fin.ext
  match a with
  | ⟨0, _⟩ => show win0_1.index t 0 * 128 + 1 * p.val = b.val; rw [hi_b, hb]; omega
  | ⟨1, _⟩ => show win0_1.index t 1 * 1 + 1 * z.val = z.val; rw [hi_s]; omega
  | ⟨2, _⟩ => show win0_1.index t 2 * 128 + 1 * d.val = d.val; rw [hi_l]; omega

end AnyValues

variable (V : (c : Dev nD) → (b : Ref sig .tc) → Buf (Elt Ideal) ((c : Thread nD τ).loc b))

/-- Row b, lane d of the input along the sequence, extended by zero past the array's ends. -/
def row0 (c : Dev nD) (b : ℕ) (d : Fin 128) (k : ℕ) : Ideal .f32 :=
  if h : b < 512 ∧ k < 64 then xarr0 V c (ix3 ⟨b, h.1⟩ ⟨k, h.2⟩ d) else 0

theorem tileSum0 (c : Dev nD) (t : Fin cfg0.N) (p d : Fin 128) :
    ∑ r : Fin 64, iblk0 V c t (ix3 p r d)
      = ∑ r ∈ Finset.range 64, row0 V c (128 * (t.val / 1) + p.val) d (64 * (t.val % 1) + r) := by
  have hN : t.val < 4 := lt_of_lt_of_eq t.isLt (show cfg0.N = 4 from N_0)
  have hp := p.isLt
  rw [Finset.sum_range]
  refine Finset.sum_congr rfl fun r _ => ?_
  have hr := r.isLt
  have hb : 128 * (t.val / 1) + p.val < 512 := by omega
  have hk : 64 * (t.val % 1) + r.val < 64 := by omega
  unfold row0
  rw [dif_pos ⟨hb, hk⟩]
  exact xblk_at0 V c t p r d ⟨_, hb⟩ ⟨_, hk⟩ rfl rfl

/-- The reference's array: every batch row's sum over the whole sequence, kept as a unit axis. -/
abbrev sums0 (c : Dev nD) : Vec Ideal S512x1x128 .f32 :=
  Cert.ReferenceIdeal.Read.val_main_v1 (F := Ideal) (xarr0 V c)

theorem sums_at0 (c : Dev nD) (b : Fin 512) (z : Fin 1) (d : Fin 128) :
    sums0 V c (ix3 b z d) = ∑ k ∈ Finset.range 64, row0 V c b.val d k := by
  unfold sums0
  rw [Cert.ReferenceIdeal.Read.val_main_v1_apply, Cert.ReferenceIdeal.Read.val_main_v0_apply,
    Cert.ReferenceIdeal.Read.val_main_cst_apply]
  show Ideal.ofBits .f32 0x00000000#32 + _ = _
  rw [Ideal.ofBits_zero_f32, zero_add, Finset.sum_range]
  refine Finset.sum_congr rfl fun k _ => ?_
  unfold row0
  rw [dif_pos ⟨b.isLt, k.isLt⟩]
  exact congrArg (xarr0 V c) (funext fun a => Fin.ext (by
    match a with | ⟨0, _⟩ => rfl | ⟨1, _⟩ => rfl | ⟨2, _⟩ => rfl))

/-- At a batch tile's last point the running sum covers the whole sequence: the tile is its block of the reference's array. -/
theorem flushed_eq0 (c : Dev nD) (t : Fin cfg0.N) (hf : (cfg0.win 1).flush t = true) :
    (dat0 (F := Ideal) V c).flushed 1 t = ((cfg0.win 1).blk t).view.read (Elt Ideal) (sums0 V c) := by
  have hN : t.val < 4 := lt_of_lt_of_eq t.isLt (show cfg0.N = 4 from N_0)
  have hl : t.val % 1 + 1 = 1 := by
    first
    | omega
    | (have := (flush0_1 t).mp hf; omega)
  funext y
  obtain ⟨p, z, d, rfl⟩ : ∃ (p : Fin 128) (z : Fin 1) (d : Fin 128), y = ix3 p z d :=
    ⟨y 0, y 1, y 2, funext fun a => by match a with | ⟨0, _⟩ => rfl | ⟨1, _⟩ => rfl | ⟨2, _⟩ => rfl⟩
  have hp := p.isLt
  have hb : 128 * (t.val / 1) + p.val < 512 := by omega
  rw [oblk_at0 (F := Ideal) c t (sums0 V c) p z d ⟨_, hb⟩ rfl, sums_at0]
  show (cfg0.win 1).cut (grid0.coords t) ((dat0 (F := Ideal) V c).after 1 t) (ix3 p z d) = _
  rw [after0_1]
  refine (acc_eq (by decide) (iblk0 V c) (row0 V c) (tileSum0 V c) t.val t.isLt p z d).trans ?_
  rw [show 64 * (t.val % 1 + 1) = 64 by omega]

/-- The output array ends as the reference's sums: batch row b comes from the last point of batch tile b / 128. -/
theorem final0 (c : Dev nD) :
    (dat0 (F := Ideal) V c).arrAt 1 cfg0.N = Cert.ReferenceIdeal.Read.val_main_v1 (F := Ideal) (V c main_arg0) :=
  (dat0 (F := Ideal) V c).arrAt_eq_of_cover 1 (sums0 V c) (flushed_eq0 V c) fun i => by
    have hN : cfg0.N = 4 := N_0
    have hb : (i 0).val < 512 := (i 0).isLt
    have hz : (i 1).val < 1 := (i 1).isLt
    have hd : (i 2).val < 128 := (i 2).isLt
    have ht : 1 * ((i 0).val / 128) + (1 - 1) < cfg0.N := by omega
    generalize hu : (⟨1 * ((i 0).val / 128) + (1 - 1), ht⟩ : Fin cfg0.N) = u
    have hv : u.val = 1 * ((i 0).val / 128) + (1 - 1) := by rw [← hu]
    refine ⟨u, (by first | exact flush0_1 u | exact (flush0_1 u).mpr (by omega)), ?_⟩
    obtain ⟨hi_b, hi_s, hi_l⟩ := outIdx0 u
    show i ∈ ((View.whole main_v0).slice (win0_1.rect u)).set
    rw [View.set_slice_whole, Rect.mem_set_unit]
    intro a
    match a with
    | ⟨0, _⟩ =>
      show win0_1.index u 0 * 128 ≤ (i 0 : Nat) ∧ (i 0 : Nat) < win0_1.index u 0 * 128 + 128
      rw [hi_b]; omega
    | ⟨1, _⟩ =>
      show win0_1.index u 1 * 1 ≤ (i 1 : Nat) ∧ (i 1 : Nat) < win0_1.index u 1 * 1 + 1
      rw [hi_s]; omega
    | ⟨2, _⟩ =>
      show win0_1.index u 2 * 128 ≤ (i 2 : Nat) ∧ (i 2 : Nat) < win0_1.index u 2 * 128 + 128
      rw [hi_l]; omega

end Cert.KernelIdeal.Val

end
-- ==== Proof.KI.Value1.lean ====
import proofs.«131913_j48773648613703_1_alg».proof.Proof.KI.Region1
import proofs.«131913_j48773648613703_1_alg».proof.Proof.KI.Sum
import proofs.«131913_j48773648613703_1_alg».proof.Proof.Gen.ReferenceIdeal.Read
import Idealize.ShloMosaic.Lib.Pipeline.Value

set_option maxRecDepth 16384

noncomputable section

namespace Cert.KernelIdeal.Val

open Cert.KernelIdeal Cert.KernelIdeal.Gen Cert.KernelIdeal.Frm
open Idealize.ShloMosaic Idealize.ShloMosaic.TcCoe Idealize.ShloMosaic.ValueIdx
open Idealize.ShloMosaic.Pipeline (Dat)
open scoped BigOperators

section AnyValues

variable {F : FTy → Type} [FloatOps F]
variable (V : (c : Dev nD) → (b : Ref sig .tc) → Buf (Elt F) ((c : Thread nD τ).loc b))

abbrev xarr1 (c : Dev nD) : Vec F S512x128x128/-SH-/ .f32 := V c main_arg1

/-- Point t reads batch tile t / L, sequence tile t % L, -/
theorem inIdx1 : ∀ t : Fin cfg1.N, win1_0.index t 0 = t.val / 2/-L-/ ∧ win1_0.index t 1 = t.val % 2/-L-/ ∧ win1_0.index t 2 = 0 :=
  (by decide +kernel : ∀ t : Fin grid1.N, win1_0.index t 0 = t.val / 2/-L-/ ∧ win1_0.index t 1 = t.val % 2/-L-/ ∧ win1_0.index t 2 = 0)

/-- and writes batch tile t / L. -/
theorem outIdx1 : ∀ t : Fin cfg1.N, win1_1.index t 0 = t.val / 2/-L-/ ∧ win1_1.index t 1 = 0 ∧ win1_1.index t 2 = 0 :=
  (by decide +kernel : ∀ t : Fin grid1.N, win1_1.index t 0 = t.val / 2/-L-/ ∧ win1_1.index t 1 = 0 ∧ win1_1.index t 2 = 0)

theorem xblk_at1 (c : Dev nD) (t : Fin cfg1.N) (p : Fin 128) (r : Fin 64) (d : Fin 128) (b : Fin 512) (k : Fin 128/-S-/)
    (hb : b.val = 128 * (t.val / 2/-L-/) + p.val) (hk : k.val = 64 * (t.val % 2/-L-/) + r.val) :
    iblk1 V c t (ix3 p r d) = xarr1 V c (ix3 b k d) := by
  obtain ⟨hi_b, hi_s, hi_l⟩ := inIdx1 t
  unfold iblk1
  rw [View.read_apply]
  show V c main_arg1 _ = V c main_arg1 _
  congr 1
  funext a
  apply Fin.ext
  match a with
  | ⟨0, _⟩ => show win1_0.index t 0 * 128 + 1 * p.val = b.val; rw [hi_b, hb]; omega
  | ⟨1, _⟩ => show win1_0.index t 1 * 64 + 1 * r.val = k.val; rw [hi_s, hk]; omega
  | ⟨2, _⟩ => show win1_0.index t 2 * 128 + 1 * d.val = d.val; rw [hi_l]; omega

theorem oblk_at1 (c : Dev nD) (t : Fin cfg1.N) (G : Vec F S512x1x128 .f32) (p : Fin 128) (z : Fin 1) (d : Fin 128) (b : Fin 512)
    (hb : b.val = 128 * (t.val / 2/-L-/) + p.val) :
    ((cfg1.win 1).blk t).view.read (Elt F) G (ix3 p z d) = G (ix3 b z d) := by
  obtain ⟨hi_b, hi_s, hi_l⟩ := outIdx1 t
  rw [View.read_apply]
  show G _ = G _
  congr 1
  funext a
  apply Fin.ext
  match a with
  | ⟨0, _⟩ => show win1_1.index t 0 * 128 + 1 * p.val = b.val; rw [hi_b, hb]; omega
  | ⟨1, _⟩ => show win1_1.index t 1 * 1 + 1 * z.val = z.val; rw [hi_s]; omega
  | ⟨2, _⟩ => show win1_1.index t 2 * 128 + 1 * d.val = d.val; rw [hi_l]; omega

end AnyValues

variable (V : (c : Dev nD) → (b : Ref sig .tc) → Buf (Elt Ideal) ((c : Thread nD τ).loc b))

/-- Row b, lane d of the input along the sequence, extended by zero past the array's ends. -/
def row1 (c : Dev nD) (b : ℕ) (d : Fin 128) (k : ℕ) : Ideal .f32 :=
  if h : b < 512 ∧ k < 128/-S-/ then xarr1 V c (ix3 ⟨b, h.1⟩ ⟨k, h.2⟩ d) else 0

theorem tileSum1 (c : Dev nD) (t : Fin cfg1.N) (p d : Fin 128) :
    ∑ r : Fin 64, iblk1 V c t (ix3 p r d)
      = ∑ r ∈ Finset.range 64, row1 V c (128 * (t.val / 2/-L-/) + p.val) d (64 * (t.val % 2/-L-/) + r) := by
  have hN : t.val < 8/-N-/ := lt_of_lt_of_eq t.isLt (show cfg1.N = 8/-N-/ from N_1)
  have hp := p.isLt
  rw [Finset.sum_range]
  refine Finset.sum_congr rfl fun r _ => ?_
  have hr := r.isLt
  have hb : 128 * (t.val / 2/-L-/) + p.val < 512 := by omega
  have hk : 64 * (t.val % 2/-L-/) + r.val < 128/-S-/ := by omega
  unfold row1
  rw [dif_pos ⟨hb, hk⟩]
  exact xblk_at1 V c t p r d ⟨_, hb⟩ ⟨_, hk⟩ rfl rfl

/-- The reference's array: every batch row's sum over the whole sequence, kept as a unit axis. -/
abbrev sums1 (c : Dev nD) : Vec Ideal S512x1x128 .f32 :=
  Cert.ReferenceIdeal.Read.val_main_v3/-B-/ (F := Ideal) (xarr1 V c)

theorem sums_at1 (c : Dev nD) (b : Fin 512) (z : Fin 1) (d : Fin 128) :
    sums1 V c (ix3 b z d) = ∑ k ∈ Finset.range 128/-S-/, row1 V c b.val d k := by
  unfold sums1
  rw [Cert.ReferenceIdeal.Read.val_main_v3_apply/-B-/, Cert.ReferenceIdeal.Read.val_main_v2_apply/-R-/,
    Cert.ReferenceIdeal.Read.val_main_cst_0_apply/-C-/]
  show Ideal.ofBits .f32 0x00000000#32 + _ = _
  rw [Ideal.ofBits_zero_f32, zero_add, Finset.sum_range]
  refine Finset.sum_congr rfl fun k _ => ?_
  unfold row1
  rw [dif_pos ⟨b.isLt, k.isLt⟩]
  exact congrArg (xarr1 V c) (funext fun a => Fin.ext (by
    match a with | ⟨0, _⟩ => rfl | ⟨1, _⟩ => rfl | ⟨2, _⟩ => rfl))

/-- At a batch tile's last point the running sum covers the whole sequence: the tile is its block of the reference's array. -/
theorem flushed_eq1 (c : Dev nD) (t : Fin cfg1.N) (hf : (cfg1.win 1).flush t = true) :
    (dat1 (F := Ideal) V c).flushed 1 t = ((cfg1.win 1).blk t).view.read (Elt Ideal) (sums1 V c) := by
  have hN : t.val < 8/-N-/ := lt_of_lt_of_eq t.isLt (show cfg1.N = 8/-N-/ from N_1)
  have hl : t.val % 2/-L-/ + 1 = 2/-L-/ := by
    first
    | omega
    | (have := (flush1_1 t).mp hf; omega)
  funext y
  obtain ⟨p, z, d, rfl⟩ : ∃ (p : Fin 128) (z : Fin 1) (d : Fin 128), y = ix3 p z d :=
    ⟨y 0, y 1, y 2, funext fun a => by match a with | ⟨0, _⟩ => rfl | ⟨1, _⟩ => rfl | ⟨2, _⟩ => rfl⟩
  have hp := p.isLt
  have hb : 128 * (t.val / 2/-L-/) + p.val < 512 := by omega
  rw [oblk_at1 (F := Ideal) c t (sums1 V c) p z d ⟨_, hb⟩ rfl, sums_at1]
  show (cfg1.win 1).cut (grid1.coords t) ((dat1 (F := Ideal) V c).after 1 t) (ix3 p z d) = _
  rw [after1_1]
  refine (acc_eq (by decide) (iblk1 V c) (row1 V c) (tileSum1 V c) t.val t.isLt p z d).trans ?_
  rw [show 64 * (t.val % 2/-L-/ + 1) = 128/-S-/ by omega]

/-- The output array ends as the reference's sums: batch row b comes from the last point of batch tile b / 128. -/
theorem final1 (c : Dev nD) :
    (dat1 (F := Ideal) V c).arrAt 1 cfg1.N = Cert.ReferenceIdeal.Read.val_main_v3/-B-/ (F := Ideal) (V c main_arg1) :=
  (dat1 (F := Ideal) V c).arrAt_eq_of_cover 1 (sums1 V c) (flushed_eq1 V c) fun i => by
    have hN : cfg1.N = 8/-N-/ := N_1
    have hb : (i 0).val < 512 := (i 0).isLt
    have hz : (i 1).val < 1 := (i 1).isLt
    have hd : (i 2).val < 128 := (i 2).isLt
    have ht : 2/-L-/ * ((i 0).val / 128) + (2/-L-/ - 1) < cfg1.N := by omega
    generalize hu : (⟨2/-L-/ * ((i 0).val / 128) + (2/-L-/ - 1), ht⟩ : Fin cfg1.N) = u
    have hv : u.val = 2/-L-/ * ((i 0).val / 128) + (2/-L-/ - 1) := by rw [← hu]
    refine ⟨u, (by first | exact flush1_1 u | exact (flush1_1 u).mpr (by omega)), ?_⟩
    obtain ⟨hi_b, hi_s, hi_l⟩ := outIdx1 u
    show i ∈ ((View.whole main_v1).slice (win1_1.rect u)).set
    rw [View.set_slice_whole, Rect.mem_set_unit]
    intro a
    match a with
    | ⟨0, _⟩ =>
      show win1_1.index u 0 * 128 ≤ (i 0 : Nat) ∧ (i 0 : Nat) < win1_1.index u 0 * 128 + 128
      rw [hi_b]; omega
    | ⟨1, _⟩ =>
      show win1_1.index u 1 * 1 ≤ (i 1 : Nat) ∧ (i 1 : Nat) < win1_1.index u 1 * 1 + 1
      rw [hi_s]; omega
    | ⟨2, _⟩ =>
      show win1_1.index u 2 * 128 ≤ (i 2 : Nat) ∧ (i 2 : Nat) < win1_1.index u 2 * 128 + 128
      rw [hi_l]; omega

end Cert.KernelIdeal.Val

end
-- ==== Proof.KI.Value2.lean ====
import proofs.«131913_j48773648613703_1_alg».proof.Proof.KI.Region2
import proofs.«131913_j48773648613703_1_alg».proof.Proof.KI.Sum
import proofs.«131913_j48773648613703_1_alg».proof.Proof.Gen.ReferenceIdeal.Read
import Idealize.ShloMosaic.Lib.Pipeline.Value

set_option maxRecDepth 16384

noncomputable section

namespace Cert.KernelIdeal.Val

open Cert.KernelIdeal Cert.KernelIdeal.Gen Cert.KernelIdeal.Frm
open Idealize.ShloMosaic Idealize.ShloMosaic.TcCoe Idealize.ShloMosaic.ValueIdx
open Idealize.ShloMosaic.Pipeline (Dat)
open scoped BigOperators

section AnyValues

variable {F : FTy → Type} [FloatOps F]
variable (V : (c : Dev nD) → (b : Ref sig .tc) → Buf (Elt F) ((c : Thread nD τ).loc b))

abbrev xarr2 (c : Dev nD) : Vec F S512x192x128 .f32 := V c main_arg2

/-- Point t reads batch tile t / L, sequence tile t % L, -/
theorem inIdx2 : ∀ t : Fin cfg2.N, win2_0.index t 0 = t.val / 3 ∧ win2_0.index t 1 = t.val % 3 ∧ win2_0.index t 2 = 0 :=
  (by decide +kernel : ∀ t : Fin grid2.N, win2_0.index t 0 = t.val / 3 ∧ win2_0.index t 1 = t.val % 3 ∧ win2_0.index t 2 = 0)

/-- and writes batch tile t / L. -/
theorem outIdx2 : ∀ t : Fin cfg2.N, win2_1.index t 0 = t.val / 3 ∧ win2_1.index t 1 = 0 ∧ win2_1.index t 2 = 0 :=
  (by decide +kernel : ∀ t : Fin grid2.N, win2_1.index t 0 = t.val / 3 ∧ win2_1.index t 1 = 0 ∧ win2_1.index t 2 = 0)

theorem xblk_at2 (c : Dev nD) (t : Fin cfg2.N) (p : Fin 128) (r : Fin 64) (d : Fin 128) (b : Fin 512) (k : Fin 192)
    (hb : b.val = 128 * (t.val / 3) + p.val) (hk : k.val = 64 * (t.val % 3) + r.val) :
    iblk2 V c t (ix3 p r d) = xarr2 V c (ix3 b k d) := by
  obtain ⟨hi_b, hi_s, hi_l⟩ := inIdx2 t
  unfold iblk2
  rw [View.read_apply]
  show V c main_arg2 _ = V c main_arg2 _
  congr 1
  funext a
  apply Fin.ext
  match a with
  | ⟨0, _⟩ => show win2_0.index t 0 * 128 + 1 * p.val = b.val; rw [hi_b, hb]; omega
  | ⟨1, _⟩ => show win2_0.index t 1 * 64 + 1 * r.val = k.val; rw [hi_s, hk]; omega
  | ⟨2, _⟩ => show win2_0.index t 2 * 128 + 1 * d.val = d.val; rw [hi_l]; omega

theorem oblk_at2 (c : Dev nD) (t : Fin cfg2.N) (G : Vec F S512x1x128 .f32) (p : Fin 128) (z : Fin 1) (d : Fin 128) (b : Fin 512)
    (hb : b.val = 128 * (t.val / 3) + p.val) :
    ((cfg2.win 1).blk t).view.read (Elt F) G (ix3 p z d) = G (ix3 b z d) := by
  obtain ⟨hi_b, hi_s, hi_l⟩ := outIdx2 t
  rw [View.read_apply]
  show G _ = G _
  congr 1
  funext a
  apply Fin.ext
  match a with
  | ⟨0, _⟩ => show win2_1.index t 0 * 128 + 1 * p.val = b.val; rw [hi_b, hb]; omega
  | ⟨1, _⟩ => show win2_1.index t 1 * 1 + 1 * z.val = z.val; rw [hi_s]; omega
  | ⟨2, _⟩ => show win2_1.index t 2 * 128 + 1 * d.val = d.val; rw [hi_l]; omega

end AnyValues

variable (V : (c : Dev nD) → (b : Ref sig .tc) → Buf (Elt Ideal) ((c : Thread nD τ).loc b))

/-- Row b, lane d of the input along the sequence, extended by zero past the array's ends. -/
def row2 (c : Dev nD) (b : ℕ) (d : Fin 128) (k : ℕ) : Ideal .f32 :=
  if h : b < 512 ∧ k < 192 then xarr2 V c (ix3 ⟨b, h.1⟩ ⟨k, h.2⟩ d) else 0

theorem tileSum2 (c : Dev nD) (t : Fin cfg2.N) (p d : Fin 128) :
    ∑ r : Fin 64, iblk2 V c t (ix3 p r d)
      = ∑ r ∈ Finset.range 64, row2 V c (128 * (t.val / 3) + p.val) d (64 * (t.val % 3) + r) := by
  have hN : t.val < 12 := lt_of_lt_of_eq t.isLt (show cfg2.N = 12 from N_2)
  have hp := p.isLt
  rw [Finset.sum_range]
  refine Finset.sum_congr rfl fun r _ => ?_
  have hr := r.isLt
  have hb : 128 * (t.val / 3) + p.val < 512 := by omega
  have hk : 64 * (t.val % 3) + r.val < 192 := by omega
  unfold row2
  rw [dif_pos ⟨hb, hk⟩]
  exact xblk_at2 V c t p r d ⟨_, hb⟩ ⟨_, hk⟩ rfl rfl

/-- The reference's array: every batch row's sum over the whole sequence, kept as a unit axis. -/
abbrev sums2 (c : Dev nD) : Vec Ideal S512x1x128 .f32 :=
  Cert.ReferenceIdeal.Read.val_main_v5 (F := Ideal) (xarr2 V c)

theorem sums_at2 (c : Dev nD) (b : Fin 512) (z : Fin 1) (d : Fin 128) :
    sums2 V c (ix3 b z d) = ∑ k ∈ Finset.range 192, row2 V c b.val d k := by
  unfold sums2
  rw [Cert.ReferenceIdeal.Read.val_main_v5_apply, Cert.ReferenceIdeal.Read.val_main_v4_apply,
    Cert.ReferenceIdeal.Read.val_main_cst_1_apply]
  show Ideal.ofBits .f32 0x00000000#32 + _ = _
  rw [Ideal.ofBits_zero_f32, zero_add, Finset.sum_range]
  refine Finset.sum_congr rfl fun k _ => ?_
  unfold row2
  rw [dif_pos ⟨b.isLt, k.isLt⟩]
  exact congrArg (xarr2 V c) (funext fun a => Fin.ext (by
    match a with | ⟨0, _⟩ => rfl | ⟨1, _⟩ => rfl | ⟨2, _⟩ => rfl))

/-- At a batch tile's last point the running sum covers the whole sequence: the tile is its block of the reference's array. -/
theorem flushed_eq2 (c : Dev nD) (t : Fin cfg2.N) (hf : (cfg2.win 1).flush t = true) :
    (dat2 (F := Ideal) V c).flushed 1 t = ((cfg2.win 1).blk t).view.read (Elt Ideal) (sums2 V c) := by
  have hN : t.val < 12 := lt_of_lt_of_eq t.isLt (show cfg2.N = 12 from N_2)
  have hl : t.val % 3 + 1 = 3 := by
    first
    | omega
    | (have := (flush2_1 t).mp hf; omega)
  funext y
  obtain ⟨p, z, d, rfl⟩ : ∃ (p : Fin 128) (z : Fin 1) (d : Fin 128), y = ix3 p z d :=
    ⟨y 0, y 1, y 2, funext fun a => by match a with | ⟨0, _⟩ => rfl | ⟨1, _⟩ => rfl | ⟨2, _⟩ => rfl⟩
  have hp := p.isLt
  have hb : 128 * (t.val / 3) + p.val < 512 := by omega
  rw [oblk_at2 (F := Ideal) c t (sums2 V c) p z d ⟨_, hb⟩ rfl, sums_at2]
  show (cfg2.win 1).cut (grid2.coords t) ((dat2 (F := Ideal) V c).after 1 t) (ix3 p z d) = _
  rw [after2_1]
  refine (acc_eq (by decide) (iblk2 V c) (row2 V c) (tileSum2 V c) t.val t.isLt p z d).trans ?_
  rw [show 64 * (t.val % 3 + 1) = 192 by omega]

/-- The output array ends as the reference's sums: batch row b comes from the last point of batch tile b / 128. -/
theorem final2 (c : Dev nD) :
    (dat2 (F := Ideal) V c).arrAt 1 cfg2.N = Cert.ReferenceIdeal.Read.val_main_v5 (F := Ideal) (V c main_arg2) :=
  (dat2 (F := Ideal) V c).arrAt_eq_of_cover 1 (sums2 V c) (flushed_eq2 V c) fun i => by
    have hN : cfg2.N = 12 := N_2
    have hb : (i 0).val < 512 := (i 0).isLt
    have hz : (i 1).val < 1 := (i 1).isLt
    have hd : (i 2).val < 128 := (i 2).isLt
    have ht : 3 * ((i 0).val / 128) + (3 - 1) < cfg2.N := by omega
    generalize hu : (⟨3 * ((i 0).val / 128) + (3 - 1), ht⟩ : Fin cfg2.N) = u
    have hv : u.val = 3 * ((i 0).val / 128) + (3 - 1) := by rw [← hu]
    refine ⟨u, (by first | exact flush2_1 u | exact (flush2_1 u).mpr (by omega)), ?_⟩
    obtain ⟨hi_b, hi_s, hi_l⟩ := outIdx2 u
    show i ∈ ((View.whole main_v2).slice (win2_1.rect u)).set
    rw [View.set_slice_whole, Rect.mem_set_unit]
    intro a
    match a with
    | ⟨0, _⟩ =>
      show win2_1.index u 0 * 128 ≤ (i 0 : Nat) ∧ (i 0 : Nat) < win2_1.index u 0 * 128 + 128
      rw [hi_b]; omega
    | ⟨1, _⟩ =>
      show win2_1.index u 1 * 1 ≤ (i 1 : Nat) ∧ (i 1 : Nat) < win2_1.index u 1 * 1 + 1
      rw [hi_s]; omega
    | ⟨2, _⟩ =>
      show win2_1.index u 2 * 128 ≤ (i 2 : Nat) ∧ (i 2 : Nat) < win2_1.index u 2 * 128 + 128
      rw [hi_l]; omega

end Cert.KernelIdeal.Val

end
-- ==== Proof.KI.Value3.lean ====
import proofs.«131913_j48773648613703_1_alg».proof.Proof.KI.Region3
import proofs.«131913_j48773648613703_1_alg».proof.Proof.KI.Sum
import proofs.«131913_j48773648613703_1_alg».proof.Proof.Gen.ReferenceIdeal.Read
import Idealize.ShloMosaic.Lib.Pipeline.Value

set_option maxRecDepth 16384

noncomputable section

namespace Cert.KernelIdeal.Val

open Cert.KernelIdeal Cert.KernelIdeal.Gen Cert.KernelIdeal.Frm
open Idealize.ShloMosaic Idealize.ShloMosaic.TcCoe Idealize.ShloMosaic.ValueIdx
open Idealize.ShloMosaic.Pipeline (Dat)
open scoped BigOperators

section AnyValues

variable {F : FTy → Type} [FloatOps F]
variable (V : (c : Dev nD) → (b : Ref sig .tc) → Buf (Elt F) ((c : Thread nD τ).loc b))

abbrev xarr3 (c : Dev nD) : Vec F S512x256x128 .f32 := V c main_arg3

/-- Point t reads batch tile t / L, sequence tile t % L, -/
theorem inIdx3 : ∀ t : Fin cfg3.N, win3_0.index t 0 = t.val / 4 ∧ win3_0.index t 1 = t.val % 4 ∧ win3_0.index t 2 = 0 :=
  (by decide +kernel : ∀ t : Fin grid3.N, win3_0.index t 0 = t.val / 4 ∧ win3_0.index t 1 = t.val % 4 ∧ win3_0.index t 2 = 0)

/-- and writes batch tile t / L. -/
theorem outIdx3 : ∀ t : Fin cfg3.N, win3_1.index t 0 = t.val / 4 ∧ win3_1.index t 1 = 0 ∧ win3_1.index t 2 = 0 :=
  (by decide +kernel : ∀ t : Fin grid3.N, win3_1.index t 0 = t.val / 4 ∧ win3_1.index t 1 = 0 ∧ win3_1.index t 2 = 0)

theorem xblk_at3 (c : Dev nD) (t : Fin cfg3.N) (p : Fin 128) (r : Fin 64) (d : Fin 128) (b : Fin 512) (k : Fin 256)
    (hb : b.val = 128 * (t.val / 4) + p.val) (hk : k.val = 64 * (t.val % 4) + r.val) :
    iblk3 V c t (ix3 p r d) = xarr3 V c (ix3 b k d) := by
  obtain ⟨hi_b, hi_s, hi_l⟩ := inIdx3 t
  unfold iblk3
  rw [View.read_apply]
  show V c main_arg3 _ = V c main_arg3 _
  congr 1
  funext a
  apply Fin.ext
  match a with
  | ⟨0, _⟩ => show win3_0.index t 0 * 128 + 1 * p.val = b.val; rw [hi_b, hb]; omega
  | ⟨1, _⟩ => show win3_0.index t 1 * 64 + 1 * r.val = k.val; rw [hi_s, hk]; omega
  | ⟨2, _⟩ => show win3_0.index t 2 * 128 + 1 * d.val = d.val; rw [hi_l]; omega

theorem oblk_at3 (c : Dev nD) (t : Fin cfg3.N) (G : Vec F S512x1x128 .f32) (p : Fin 128) (z : Fin 1) (d : Fin 128) (b : Fin 512)
    (hb : b.val = 128 * (t.val / 4) + p.val) :
    ((cfg3.win 1).blk t).view.read (Elt F) G (ix3 p z d) = G (ix3 b z d) := by
  obtain ⟨hi_b, hi_s, hi_l⟩ := outIdx3 t
  rw [View.read_apply]
  show G _ = G _
  congr 1
  funext a
  apply Fin.ext
  match a with
  | ⟨0, _⟩ => show win3_1.index t 0 * 128 + 1 * p.val = b.val; rw [hi_b, hb]; omega
  | ⟨1, _⟩ => show win3_1.index t 1 * 1 + 1 * z.val = z.val; rw [hi_s]; omega
  | ⟨2, _⟩ => show win3_1.index t 2 * 128 + 1 * d.val = d.val; rw [hi_l]; omega

end AnyValues

variable (V : (c : Dev nD) → (b : Ref sig .tc) → Buf (Elt Ideal) ((c : Thread nD τ).loc b))

/-- Row b, lane d of the input along the sequence, extended by zero past the array's ends. -/
def row3 (c : Dev nD) (b : ℕ) (d : Fin 128) (k : ℕ) : Ideal .f32 :=
  if h : b < 512 ∧ k < 256 then xarr3 V c (ix3 ⟨b, h.1⟩ ⟨k, h.2⟩ d) else 0

theorem tileSum3 (c : Dev nD) (t : Fin cfg3.N) (p d : Fin 128) :
    ∑ r : Fin 64, iblk3 V c t (ix3 p r d)
      = ∑ r ∈ Finset.range 64, row3 V c (128 * (t.val / 4) + p.val) d (64 * (t.val % 4) + r) := by
  have hN : t.val < 16 := lt_of_lt_of_eq t.isLt (show cfg3.N = 16 from N_3)
  have hp := p.isLt
  rw [Finset.sum_range]
  refine Finset.sum_congr rfl fun r _ => ?_
  have hr := r.isLt
  have hb : 128 * (t.val / 4) + p.val < 512 := by omega
  have hk : 64 * (t.val % 4) + r.val < 256 := by omega
  unfold row3
  rw [dif_pos ⟨hb, hk⟩]
  exact xblk_at3 V c t p r d ⟨_, hb⟩ ⟨_, hk⟩ rfl rfl

/-- The reference's array: every batch row's sum over the whole sequence, kept as a unit axis. -/
abbrev sums3 (c : Dev nD) : Vec Ideal S512x1x128 .f32 :=
  Cert.ReferenceIdeal.Read.val_main_v7 (F := Ideal) (xarr3 V c)

theorem sums_at3 (c : Dev nD) (b : Fin 512) (z : Fin 1) (d : Fin 128) :
    sums3 V c (ix3 b z d) = ∑ k ∈ Finset.range 256, row3 V c b.val d k := by
  unfold sums3
  rw [Cert.ReferenceIdeal.Read.val_main_v7_apply, Cert.ReferenceIdeal.Read.val_main_v6_apply,
    Cert.ReferenceIdeal.Read.val_main_cst_2_apply]
  show Ideal.ofBits .f32 0x00000000#32 + _ = _
  rw [Ideal.ofBits_zero_f32, zero_add, Finset.sum_range]
  refine Finset.sum_congr rfl fun k _ => ?_
  unfold row3
  rw [dif_pos ⟨b.isLt, k.isLt⟩]
  exact congrArg (xarr3 V c) (funext fun a => Fin.ext (by
    match a with | ⟨0, _⟩ => rfl | ⟨1, _⟩ => rfl | ⟨2, _⟩ => rfl))

/-- At a batch tile's last point the running sum covers the whole sequence: the tile is its block of the reference's array. -/
theorem flushed_eq3 (c : Dev nD) (t : Fin cfg3.N) (hf : (cfg3.win 1).flush t = true) :
    (dat3 (F := Ideal) V c).flushed 1 t = ((cfg3.win 1).blk t).view.read (Elt Ideal) (sums3 V c) := by
  have hN : t.val < 16 := lt_of_lt_of_eq t.isLt (show cfg3.N = 16 from N_3)
  have hl : t.val % 4 + 1 = 4 := by
    first
    | omega
    | (have := (flush3_1 t).mp hf; omega)
  funext y
  obtain ⟨p, z, d, rfl⟩ : ∃ (p : Fin 128) (z : Fin 1) (d : Fin 128), y = ix3 p z d :=
    ⟨y 0, y 1, y 2, funext fun a => by match a with | ⟨0, _⟩ => rfl | ⟨1, _⟩ => rfl | ⟨2, _⟩ => rfl⟩
  have hp := p.isLt
  have hb : 128 * (t.val / 4) + p.val < 512 := by omega
  rw [oblk_at3 (F := Ideal) c t (sums3 V c) p z d ⟨_, hb⟩ rfl, sums_at3]
  show (cfg3.win 1).cut (grid3.coords t) ((dat3 (F := Ideal) V c).after 1 t) (ix3 p z d) = _
  rw [after3_1]
  refine (acc_eq (by decide) (iblk3 V c) (row3 V c) (tileSum3 V c) t.val t.isLt p z d).trans ?_
  rw [show 64 * (t.val % 4 + 1) = 256 by omega]

/-- The output array ends as the reference's sums: batch row b comes from the last point of batch tile b / 128. -/
theorem final3 (c : Dev nD) :
    (dat3 (F := Ideal) V c).arrAt 1 cfg3.N = Cert.ReferenceIdeal.Read.val_main_v7 (F := Ideal) (V c main_arg3) :=
  (dat3 (F := Ideal) V c).arrAt_eq_of_cover 1 (sums3 V c) (flushed_eq3 V c) fun i => by
    have hN : cfg3.N = 16 := N_3
    have hb : (i 0).val < 512 := (i 0).isLt
    have hz : (i 1).val < 1 := (i 1).isLt
    have hd : (i 2).val < 128 := (i 2).isLt
    have ht : 4 * ((i 0).val / 128) + (4 - 1) < cfg3.N := by omega
    generalize hu : (⟨4 * ((i 0).val / 128) + (4 - 1), ht⟩ : Fin cfg3.N) = u
    have hv : u.val = 4 * ((i 0).val / 128) + (4 - 1) := by rw [← hu]
    refine ⟨u, (by first | exact flush3_1 u | exact (flush3_1 u).mpr (by omega)), ?_⟩
    obtain ⟨hi_b, hi_s, hi_l⟩ := outIdx3 u
    show i ∈ ((View.whole main_v3).slice (win3_1.rect u)).set
    rw [View.set_slice_whole, Rect.mem_set_unit]
    intro a
    match a with
    | ⟨0, _⟩ =>
      show win3_1.index u 0 * 128 ≤ (i 0 : Nat) ∧ (i 0 : Nat) < win3_1.index u 0 * 128 + 128
      rw [hi_b]; omega
    | ⟨1, _⟩ =>
      show win3_1.index u 1 * 1 ≤ (i 1 : Nat) ∧ (i 1 : Nat) < win3_1.index u 1 * 1 + 1
      rw [hi_s]; omega
    | ⟨2, _⟩ =>
      show win3_1.index u 2 * 128 ≤ (i 2 : Nat) ∧ (i 2 : Nat) < win3_1.index u 2 * 128 + 128
      rw [hi_l]; omega

end Cert.KernelIdeal.Val

end
-- ==== Proof.KI.Value4.lean ====
import proofs.«131913_j48773648613703_1_alg».proof.Proof.KI.Region4
import proofs.«131913_j48773648613703_1_alg».proof.Proof.KI.Sum
import proofs.«131913_j48773648613703_1_alg».proof.Proof.Gen.ReferenceIdeal.Read
import Idealize.ShloMosaic.Lib.Pipeline.Value

set_option maxRecDepth 16384

noncomputable section

namespace Cert.KernelIdeal.Val

open Cert.KernelIdeal Cert.KernelIdeal.Gen Cert.KernelIdeal.Frm
open Idealize.ShloMosaic Idealize.ShloMosaic.TcCoe Idealize.ShloMosaic.ValueIdx
open Idealize.ShloMosaic.Pipeline (Dat)
open scoped BigOperators

section AnyValues

variable {F : FTy → Type} [FloatOps F]
variable (V : (c : Dev nD) → (b : Ref sig .tc) → Buf (Elt F) ((c : Thread nD τ).loc b))

abbrev xarr4 (c : Dev nD) : Vec F S512x320x128 .f32 := V c main_arg4

/-- Point t reads batch tile t / L, sequence tile t % L, -/
theorem inIdx4 : ∀ t : Fin cfg4.N, win4_0.index t 0 = t.val / 5 ∧ win4_0.index t 1 = t.val % 5 ∧ win4_0.index t 2 = 0 :=
  (by decide +kernel : ∀ t : Fin grid4.N, win4_0.index t 0 = t.val / 5 ∧ win4_0.index t 1 = t.val % 5 ∧ win4_0.index t 2 = 0)

/-- and writes batch tile t / L. -/
theorem outIdx4 : ∀ t : Fin cfg4.N, win4_1.index t 0 = t.val / 5 ∧ win4_1.index t 1 = 0 ∧ win4_1.index t 2 = 0 :=
  (by decide +kernel : ∀ t : Fin grid4.N, win4_1.index t 0 = t.val / 5 ∧ win4_1.index t 1 = 0 ∧ win4_1.index t 2 = 0)

theorem xblk_at4 (c : Dev nD) (t : Fin cfg4.N) (p : Fin 128) (r : Fin 64) (d : Fin 128) (b : Fin 512) (k : Fin 320)
    (hb : b.val = 128 * (t.val / 5) + p.val) (hk : k.val = 64 * (t.val % 5) + r.val) :
    iblk4 V c t (ix3 p r d) = xarr4 V c (ix3 b k d) := by
  obtain ⟨hi_b, hi_s, hi_l⟩ := inIdx4 t
  unfold iblk4
  rw [View.read_apply]
  show V c main_arg4 _ = V c main_arg4 _
  congr 1
  funext a
  apply Fin.ext
  match a with
  | ⟨0, _⟩ => show win4_0.index t 0 * 128 + 1 * p.val = b.val; rw [hi_b, hb]; omega
  | ⟨1, _⟩ => show win4_0.index t 1 * 64 + 1 * r.val = k.val; rw [hi_s, hk]; omega
  | ⟨2, _⟩ => show win4_0.index t 2 * 128 + 1 * d.val = d.val; rw [hi_l]; omega

theorem oblk_at4 (c : Dev nD) (t : Fin cfg4.N) (G : Vec F S512x1x128 .f32) (p : Fin 128) (z : Fin 1) (d : Fin 128) (b : Fin 512)
    (hb : b.val = 128 * (t.val / 5) + p.val) :
    ((cfg4.win 1).blk t).view.read (Elt F) G (ix3 p z d) = G (ix3 b z d) := by
  obtain ⟨hi_b, hi_s, hi_l⟩ := outIdx4 t
  rw [View.read_apply]
  show G _ = G _
  congr 1
  funext a
  apply Fin.ext
  match a with
  | ⟨0, _⟩ => show win4_1.index t 0 * 128 + 1 * p.val = b.val; rw [hi_b, hb]; omega
  | ⟨1, _⟩ => show win4_1.index t 1 * 1 + 1 * z.val = z.val; rw [hi_s]; omega
  | ⟨2, _⟩ => show win4_1.index t 2 * 128 + 1 * d.val = d.val; rw [hi_l]; omega

end AnyValues

variable (V : (c : Dev nD) → (b : Ref sig .tc) → Buf (Elt Ideal) ((c : Thread nD τ).loc b))

/-- Row b, lane d of the input along the sequence, extended by zero past the array's ends. -/
def row4 (c : Dev nD) (b : ℕ) (d : Fin 128) (k : ℕ) : Ideal .f32 :=
  if h : b < 512 ∧ k < 320 then xarr4 V c (ix3 ⟨b, h.1⟩ ⟨k, h.2⟩ d) else 0

theorem tileSum4 (c : Dev nD) (t : Fin cfg4.N) (p d : Fin 128) :
    ∑ r : Fin 64, iblk4 V c t (ix3 p r d)
      = ∑ r ∈ Finset.range 64, row4 V c (128 * (t.val / 5) + p.val) d (64 * (t.val % 5) + r) := by
  have hN : t.val < 20 := lt_of_lt_of_eq t.isLt (show cfg4.N = 20 from N_4)
  have hp := p.isLt
  rw [Finset.sum_range]
  refine Finset.sum_congr rfl fun r _ => ?_
  have hr := r.isLt
  have hb : 128 * (t.val / 5) + p.val < 512 := by omega
  have hk : 64 * (t.val % 5) + r.val < 320 := by omega
  unfold row4
  rw [dif_pos ⟨hb, hk⟩]
  exact xblk_at4 V c t p r d ⟨_, hb⟩ ⟨_, hk⟩ rfl rfl

/-- The reference's array: every batch row's sum over the whole sequence, kept as a unit axis. -/
abbrev sums4 (c : Dev nD) : Vec Ideal S512x1x128 .f32 :=
  Cert.ReferenceIdeal.Read.val_main_v9 (F := Ideal) (xarr4 V c)

theorem sums_at4 (c : Dev nD) (b : Fin 512) (z : Fin 1) (d : Fin 128) :
    sums4 V c (ix3 b z d) = ∑ k ∈ Finset.range 320, row4 V c b.val d k := by
  unfold sums4
  rw [Cert.ReferenceIdeal.Read.val_main_v9_apply, Cert.ReferenceIdeal.Read.val_main_v8_apply,
    Cert.ReferenceIdeal.Read.val_main_cst_3_apply]
  show Ideal.ofBits .f32 0x00000000#32 + _ = _
  rw [Ideal.ofBits_zero_f32, zero_add, Finset.sum_range]
  refine Finset.sum_congr rfl fun k _ => ?_
  unfold row4
  rw [dif_pos ⟨b.isLt, k.isLt⟩]
  exact congrArg (xarr4 V c) (funext fun a => Fin.ext (by
    match a with | ⟨0, _⟩ => rfl | ⟨1, _⟩ => rfl | ⟨2, _⟩ => rfl))

/-- At a batch tile's last point the running sum covers the whole sequence: the tile is its block of the reference's array. -/
theorem flushed_eq4 (c : Dev nD) (t : Fin cfg4.N) (hf : (cfg4.win 1).flush t = true) :
    (dat4 (F := Ideal) V c).flushed 1 t = ((cfg4.win 1).blk t).view.read (Elt Ideal) (sums4 V c) := by
  have hN : t.val < 20 := lt_of_lt_of_eq t.isLt (show cfg4.N = 20 from N_4)
  have hl : t.val % 5 + 1 = 5 := by
    first
    | omega
    | (have := (flush4_1 t).mp hf; omega)
  funext y
  obtain ⟨p, z, d, rfl⟩ : ∃ (p : Fin 128) (z : Fin 1) (d : Fin 128), y = ix3 p z d :=
    ⟨y 0, y 1, y 2, funext fun a => by match a with | ⟨0, _⟩ => rfl | ⟨1, _⟩ => rfl | ⟨2, _⟩ => rfl⟩
  have hp := p.isLt
  have hb : 128 * (t.val / 5) + p.val < 512 := by omega
  rw [oblk_at4 (F := Ideal) c t (sums4 V c) p z d ⟨_, hb⟩ rfl, sums_at4]
  show (cfg4.win 1).cut (grid4.coords t) ((dat4 (F := Ideal) V c).after 1 t) (ix3 p z d) = _
  rw [after4_1]
  refine (acc_eq (by decide) (iblk4 V c) (row4 V c) (tileSum4 V c) t.val t.isLt p z d).trans ?_
  rw [show 64 * (t.val % 5 + 1) = 320 by omega]

/-- The output array ends as the reference's sums: batch row b comes from the last point of batch tile b / 128. -/
theorem final4 (c : Dev nD) :
    (dat4 (F := Ideal) V c).arrAt 1 cfg4.N = Cert.ReferenceIdeal.Read.val_main_v9 (F := Ideal) (V c main_arg4) :=
  (dat4 (F := Ideal) V c).arrAt_eq_of_cover 1 (sums4 V c) (flushed_eq4 V c) fun i => by
    have hN : cfg4.N = 20 := N_4
    have hb : (i 0).val < 512 := (i 0).isLt
    have hz : (i 1).val < 1 := (i 1).isLt
    have hd : (i 2).val < 128 := (i 2).isLt
    have ht : 5 * ((i 0).val / 128) + (5 - 1) < cfg4.N := by omega
    generalize hu : (⟨5 * ((i 0).val / 128) + (5 - 1), ht⟩ : Fin cfg4.N) = u
    have hv : u.val = 5 * ((i 0).val / 128) + (5 - 1) := by rw [← hu]
    refine ⟨u, (by first | exact flush4_1 u | exact (flush4_1 u).mpr (by omega)), ?_⟩
    obtain ⟨hi_b, hi_s, hi_l⟩ := outIdx4 u
    show i ∈ ((View.whole main_v4).slice (win4_1.rect u)).set
    rw [View.set_slice_whole, Rect.mem_set_unit]
    intro a
    match a with
    | ⟨0, _⟩ =>
      show win4_1.index u 0 * 128 ≤ (i 0 : Nat) ∧ (i 0 : Nat) < win4_1.index u 0 * 128 + 128
      rw [hi_b]; omega
    | ⟨1, _⟩ =>
      show win4_1.index u 1 * 1 ≤ (i 1 : Nat) ∧ (i 1 : Nat) < win4_1.index u 1 * 1 + 1
      rw [hi_s]; omega
    | ⟨2, _⟩ =>
      show win4_1.index u 2 * 128 ≤ (i 2 : Nat) ∧ (i 2 : Nat) < win4_1.index u 2 * 128 + 128
      rw [hi_l]; omega

end Cert.KernelIdeal.Val

end
-- ==== Proof.KI.Value5.lean ====
import proofs.«131913_j48773648613703_1_alg».proof.Proof.KI.Region5
import proofs.«131913_j48773648613703_1_alg».proof.Proof.KI.Sum
import proofs.«131913_j48773648613703_1_alg».proof.Proof.Gen.ReferenceIdeal.Read
import Idealize.ShloMosaic.Lib.Pipeline.Value

set_option maxRecDepth 16384

noncomputable section

namespace Cert.KernelIdeal.Val

open Cert.KernelIdeal Cert.KernelIdeal.Gen Cert.KernelIdeal.Frm
open Idealize.ShloMosaic Idealize.ShloMosaic.TcCoe Idealize.ShloMosaic.ValueIdx
open Idealize.ShloMosaic.Pipeline (Dat)
open scoped BigOperators

section AnyValues

variable {F : FTy → Type} [FloatOps F]
variable (V : (c : Dev nD) → (b : Ref sig .tc) → Buf (Elt F) ((c : Thread nD τ).loc b))

abbrev xarr5 (c : Dev nD) : Vec F S512x384x128 .f32 := V c main_arg5

/-- Point t reads batch tile t / L, sequence tile t % L, -/
theorem inIdx5 : ∀ t : Fin cfg5.N, win5_0.index t 0 = t.val / 6 ∧ win5_0.index t 1 = t.val % 6 ∧ win5_0.index t 2 = 0 :=
  (by decide +kernel : ∀ t : Fin grid5.N, win5_0.index t 0 = t.val / 6 ∧ win5_0.index t 1 = t.val % 6 ∧ win5_0.index t 2 = 0)

/-- and writes batch tile t / L. -/
theorem outIdx5 : ∀ t : Fin cfg5.N, win5_1.index t 0 = t.val / 6 ∧ win5_1.index t 1 = 0 ∧ win5_1.index t 2 = 0 :=
  (by decide +kernel : ∀ t : Fin grid5.N, win5_1.index t 0 = t.val / 6 ∧ win5_1.index t 1 = 0 ∧ win5_1.index t 2 = 0)

theorem xblk_at5 (c : Dev nD) (t : Fin cfg5.N) (p : Fin 128) (r : Fin 64) (d : Fin 128) (b : Fin 512) (k : Fin 384)
    (hb : b.val = 128 * (t.val / 6) + p.val) (hk : k.val = 64 * (t.val % 6) + r.val) :
    iblk5 V c t (ix3 p r d) = xarr5 V c (ix3 b k d) := by
  obtain ⟨hi_b, hi_s, hi_l⟩ := inIdx5 t
  unfold iblk5
  rw [View.read_apply]
  show V c main_arg5 _ = V c main_arg5 _
  congr 1
  funext a
  apply Fin.ext
  match a with
  | ⟨0, _⟩ => show win5_0.index t 0 * 128 + 1 * p.val = b.val; rw [hi_b, hb]; omega
  | ⟨1, _⟩ => show win5_0.index t 1 * 64 + 1 * r.val = k.val; rw [hi_s, hk]; omega
  | ⟨2, _⟩ => show win5_0.index t 2 * 128 + 1 * d.val = d.val; rw [hi_l]; omega

theorem oblk_at5 (c : Dev nD) (t : Fin cfg5.N) (G : Vec F S512x1x128 .f32) (p : Fin 128) (z : Fin 1) (d : Fin 128) (b : Fin 512)
    (hb : b.val = 128 * (t.val / 6) + p.val) :
    ((cfg5.win 1).blk t).view.read (Elt F) G (ix3 p z d) = G (ix3 b z d) := by
  obtain ⟨hi_b, hi_s, hi_l⟩ := outIdx5 t
  rw [View.read_apply]
  show G _ = G _
  congr 1
  funext a
  apply Fin.ext
  match a with
  | ⟨0, _⟩ => show win5_1.index t 0 * 128 + 1 * p.val = b.val; rw [hi_b, hb]; omega
  | ⟨1, _⟩ => show win5_1.index t 1 * 1 + 1 * z.val = z.val; rw [hi_s]; omega
  | ⟨2, _⟩ => show win5_1.index t 2 * 128 + 1 * d.val = d.val; rw [hi_l]; omega

end AnyValues

variable (V : (c : Dev nD) → (b : Ref sig .tc) → Buf (Elt Ideal) ((c : Thread nD τ).loc b))

/-- Row b, lane d of the input along the sequence, extended by zero past the array's ends. -/
def row5 (c : Dev nD) (b : ℕ) (d : Fin 128) (k : ℕ) : Ideal .f32 :=
  if h : b < 512 ∧ k < 384 then xarr5 V c (ix3 ⟨b, h.1⟩ ⟨k, h.2⟩ d) else 0

theorem tileSum5 (c : Dev nD) (t : Fin cfg5.N) (p d : Fin 128) :
    ∑ r : Fin 64, iblk5 V c t (ix3 p r d)
      = ∑ r ∈ Finset.range 64, row5 V c (128 * (t.val / 6) + p.val) d (64 * (t.val % 6) + r) := by
  have hN : t.val < 24 := lt_of_lt_of_eq t.isLt (show cfg5.N = 24 from N_5)
  have hp := p.isLt
  rw [Finset.sum_range]
  refine Finset.sum_congr rfl fun r _ => ?_
  have hr := r.isLt
  have hb : 128 * (t.val / 6) + p.val < 512 := by omega
  have hk : 64 * (t.val % 6) + r.val < 384 := by omega
  unfold row5
  rw [dif_pos ⟨hb, hk⟩]
  exact xblk_at5 V c t p r d ⟨_, hb⟩ ⟨_, hk⟩ rfl rfl

/-- The reference's array: every batch row's sum over the whole sequence, kept as a unit axis. -/
abbrev sums5 (c : Dev nD) : Vec Ideal S512x1x128 .f32 :=
  Cert.ReferenceIdeal.Read.val_main_v11 (F := Ideal) (xarr5 V c)

theorem sums_at5 (c : Dev nD) (b : Fin 512) (z : Fin 1) (d : Fin 128) :
    sums5 V c (ix3 b z d) = ∑ k ∈ Finset.range 384, row5 V c b.val d k := by
  unfold sums5
  rw [Cert.ReferenceIdeal.Read.val_main_v11_apply, Cert.ReferenceIdeal.Read.val_main_v10_apply,
    Cert.ReferenceIdeal.Read.val_main_cst_4_apply]
  show Ideal.ofBits .f32 0x00000000#32 + _ = _
  rw [Ideal.ofBits_zero_f32, zero_add, Finset.sum_range]
  refine Finset.sum_congr rfl fun k _ => ?_
  unfold row5
  rw [dif_pos ⟨b.isLt, k.isLt⟩]
  exact congrArg (xarr5 V c) (funext fun a => Fin.ext (by
    match a with | ⟨0, _⟩ => rfl | ⟨1, _⟩ => rfl | ⟨2, _⟩ => rfl))

/-- At a batch tile's last point the running sum covers the whole sequence: the tile is its block of the reference's array. -/
theorem flushed_eq5 (c : Dev nD) (t : Fin cfg5.N) (hf : (cfg5.win 1).flush t = true) :
    (dat5 (F := Ideal) V c).flushed 1 t = ((cfg5.win 1).blk t).view.read (Elt Ideal) (sums5 V c) := by
  have hN : t.val < 24 := lt_of_lt_of_eq t.isLt (show cfg5.N = 24 from N_5)
  have hl : t.val % 6 + 1 = 6 := by
    first
    | omega
    | (have := (flush5_1 t).mp hf; omega)
  funext y
  obtain ⟨p, z, d, rfl⟩ : ∃ (p : Fin 128) (z : Fin 1) (d : Fin 128), y = ix3 p z d :=
    ⟨y 0, y 1, y 2, funext fun a => by match a with | ⟨0, _⟩ => rfl | ⟨1, _⟩ => rfl | ⟨2, _⟩ => rfl⟩
  have hp := p.isLt
  have hb : 128 * (t.val / 6) + p.val < 512 := by omega
  rw [oblk_at5 (F := Ideal) c t (sums5 V c) p z d ⟨_, hb⟩ rfl, sums_at5]
  show (cfg5.win 1).cut (grid5.coords t) ((dat5 (F := Ideal) V c).after 1 t) (ix3 p z d) = _
  rw [after5_1]
  refine (acc_eq (by decide) (iblk5 V c) (row5 V c) (tileSum5 V c) t.val t.isLt p z d).trans ?_
  rw [show 64 * (t.val % 6 + 1) = 384 by omega]

/-- The output array ends as the reference's sums: batch row b comes from the last point of batch tile b / 128. -/
theorem final5 (c : Dev nD) :
    (dat5 (F := Ideal) V c).arrAt 1 cfg5.N = Cert.ReferenceIdeal.Read.val_main_v11 (F := Ideal) (V c main_arg5) :=
  (dat5 (F := Ideal) V c).arrAt_eq_of_cover 1 (sums5 V c) (flushed_eq5 V c) fun i => by
    have hN : cfg5.N = 24 := N_5
    have hb : (i 0).val < 512 := (i 0).isLt
    have hz : (i 1).val < 1 := (i 1).isLt
    have hd : (i 2).val < 128 := (i 2).isLt
    have ht : 6 * ((i 0).val / 128) + (6 - 1) < cfg5.N := by omega
    generalize hu : (⟨6 * ((i 0).val / 128) + (6 - 1), ht⟩ : Fin cfg5.N) = u
    have hv : u.val = 6 * ((i 0).val / 128) + (6 - 1) := by rw [← hu]
    refine ⟨u, (by first | exact flush5_1 u | exact (flush5_1 u).mpr (by omega)), ?_⟩
    obtain ⟨hi_b, hi_s, hi_l⟩ := outIdx5 u
    show i ∈ ((View.whole main_v5).slice (win5_1.rect u)).set
    rw [View.set_slice_whole, Rect.mem_set_unit]
    intro a
    match a with
    | ⟨0, _⟩ =>
      show win5_1.index u 0 * 128 ≤ (i 0 : Nat) ∧ (i 0 : Nat) < win5_1.index u 0 * 128 + 128
      rw [hi_b]; omega
    | ⟨1, _⟩ =>
      show win5_1.index u 1 * 1 ≤ (i 1 : Nat) ∧ (i 1 : Nat) < win5_1.index u 1 * 1 + 1
      rw [hi_s]; omega
    | ⟨2, _⟩ =>
      show win5_1.index u 2 * 128 ≤ (i 2 : Nat) ∧ (i 2 : Nat) < win5_1.index u 2 * 128 + 128
      rw [hi_l]; omega

end Cert.KernelIdeal.Val

end
-- ==== Proof.KI.Value6.lean ====
import proofs.«131913_j48773648613703_1_alg».proof.Proof.KI.Region6
import proofs.«131913_j48773648613703_1_alg».proof.Proof.KI.Sum
import proofs.«131913_j48773648613703_1_alg».proof.Proof.Gen.ReferenceIdeal.Read
import Idealize.ShloMosaic.Lib.Pipeline.Value

set_option maxRecDepth 16384

noncomputable section

namespace Cert.KernelIdeal.Val

open Cert.KernelIdeal Cert.KernelIdeal.Gen Cert.KernelIdeal.Frm
open Idealize.ShloMosaic Idealize.ShloMosaic.TcCoe Idealize.ShloMosaic.ValueIdx
open Idealize.ShloMosaic.Pipeline (Dat)
open scoped BigOperators

section AnyValues

variable {F : FTy → Type} [FloatOps F]
variable (V : (c : Dev nD) → (b : Ref sig .tc) → Buf (Elt F) ((c : Thread nD τ).loc b))

abbrev xarr6 (c : Dev nD) : Vec F S512x448x128 .f32 := V c main_arg6

/-- Point t reads batch tile t / L, sequence tile t % L, -/
theorem inIdx6 : ∀ t : Fin cfg6.N, win6_0.index t 0 = t.val / 7 ∧ win6_0.index t 1 = t.val % 7 ∧ win6_0.index t 2 = 0 :=
  (by decide +kernel : ∀ t : Fin grid6.N, win6_0.index t 0 = t.val / 7 ∧ win6_0.index t 1 = t.val % 7 ∧ win6_0.index t 2 = 0)

/-- and writes batch tile t / L. -/
theorem outIdx6 : ∀ t : Fin cfg6.N, win6_1.index t 0 = t.val / 7 ∧ win6_1.index t 1 = 0 ∧ win6_1.index t 2 = 0 :=
  (by decide +kernel : ∀ t : Fin grid6.N, win6_1.index t 0 = t.val / 7 ∧ win6_1.index t 1 = 0 ∧ win6_1.index t 2 = 0)

theorem xblk_at6 (c : Dev nD) (t : Fin cfg6.N) (p : Fin 128) (r : Fin 64) (d : Fin 128) (b : Fin 512) (k : Fin 448)
    (hb : b.val = 128 * (t.val / 7) + p.val) (hk : k.val = 64 * (t.val % 7) + r.val) :
    iblk6 V c t (ix3 p r d) = xarr6 V c (ix3 b k d) := by
  obtain ⟨hi_b, hi_s, hi_l⟩ := inIdx6 t
  unfold iblk6
  rw [View.read_apply]
  show V c main_arg6 _ = V c main_arg6 _
  congr 1
  funext a
  apply Fin.ext
  match a with
  | ⟨0, _⟩ => show win6_0.index t 0 * 128 + 1 * p.val = b.val; rw [hi_b, hb]; omega
  | ⟨1, _⟩ => show win6_0.index t 1 * 64 + 1 * r.val = k.val; rw [hi_s, hk]; omega
  | ⟨2, _⟩ => show win6_0.index t 2 * 128 + 1 * d.val = d.val; rw [hi_l]; omega

theorem oblk_at6 (c : Dev nD) (t : Fin cfg6.N) (G : Vec F S512x1x128 .f32) (p : Fin 128) (z : Fin 1) (d : Fin 128) (b : Fin 512)
    (hb : b.val = 128 * (t.val / 7) + p.val) :
    ((cfg6.win 1).blk t).view.read (Elt F) G (ix3 p z d) = G (ix3 b z d) := by
  obtain ⟨hi_b, hi_s, hi_l⟩ := outIdx6 t
  rw [View.read_apply]
  show G _ = G _
  congr 1
  funext a
  apply Fin.ext
  match a with
  | ⟨0, _⟩ => show win6_1.index t 0 * 128 + 1 * p.val = b.val; rw [hi_b, hb]; omega
  | ⟨1, _⟩ => show win6_1.index t 1 * 1 + 1 * z.val = z.val; rw [hi_s]; omega
  | ⟨2, _⟩ => show win6_1.index t 2 * 128 + 1 * d.val = d.val; rw [hi_l]; omega

end AnyValues

variable (V : (c : Dev nD) → (b : Ref sig .tc) → Buf (Elt Ideal) ((c : Thread nD τ).loc b))

/-- Row b, lane d of the input along the sequence, extended by zero past the array's ends. -/
def row6 (c : Dev nD) (b : ℕ) (d : Fin 128) (k : ℕ) : Ideal .f32 :=
  if h : b < 512 ∧ k < 448 then xarr6 V c (ix3 ⟨b, h.1⟩ ⟨k, h.2⟩ d) else 0

theorem tileSum6 (c : Dev nD) (t : Fin cfg6.N) (p d : Fin 128) :
    ∑ r : Fin 64, iblk6 V c t (ix3 p r d)
      = ∑ r ∈ Finset.range 64, row6 V c (128 * (t.val / 7) + p.val) d (64 * (t.val % 7) + r) := by
  have hN : t.val < 28 := lt_of_lt_of_eq t.isLt (show cfg6.N = 28 from N_6)
  have hp := p.isLt
  rw [Finset.sum_range]
  refine Finset.sum_congr rfl fun r _ => ?_
  have hr := r.isLt
  have hb : 128 * (t.val / 7) + p.val < 512 := by omega
  have hk : 64 * (t.val % 7) + r.val < 448 := by omega
  unfold row6
  rw [dif_pos ⟨hb, hk⟩]
  exact xblk_at6 V c t p r d ⟨_, hb⟩ ⟨_, hk⟩ rfl rfl

/-- The reference's array: every batch row's sum over the whole sequence, kept as a unit axis. -/
abbrev sums6 (c : Dev nD) : Vec Ideal S512x1x128 .f32 :=
  Cert.ReferenceIdeal.Read.val_main_v13 (F := Ideal) (xarr6 V c)

theorem sums_at6 (c : Dev nD) (b : Fin 512) (z : Fin 1) (d : Fin 128) :
    sums6 V c (ix3 b z d) = ∑ k ∈ Finset.range 448, row6 V c b.val d k := by
  unfold sums6
  rw [Cert.ReferenceIdeal.Read.val_main_v13_apply, Cert.ReferenceIdeal.Read.val_main_v12_apply,
    Cert.ReferenceIdeal.Read.val_main_cst_5_apply]
  show Ideal.ofBits .f32 0x00000000#32 + _ = _
  rw [Ideal.ofBits_zero_f32, zero_add, Finset.sum_range]
  refine Finset.sum_congr rfl fun k _ => ?_
  unfold row6
  rw [dif_pos ⟨b.isLt, k.isLt⟩]
  exact congrArg (xarr6 V c) (funext fun a => Fin.ext (by
    match a with | ⟨0, _⟩ => rfl | ⟨1, _⟩ => rfl | ⟨2, _⟩ => rfl))

/-- At a batch tile's last point the running sum covers the whole sequence: the tile is its block of the reference's array. -/
theorem flushed_eq6 (c : Dev nD) (t : Fin cfg6.N) (hf : (cfg6.win 1).flush t = true) :
    (dat6 (F := Ideal) V c).flushed 1 t = ((cfg6.win 1).blk t).view.read (Elt Ideal) (sums6 V c) := by
  have hN : t.val < 28 := lt_of_lt_of_eq t.isLt (show cfg6.N = 28 from N_6)
  have hl : t.val % 7 + 1 = 7 := by
    first
    | omega
    | (have := (flush6_1 t).mp hf; omega)
  funext y
  obtain ⟨p, z, d, rfl⟩ : ∃ (p : Fin 128) (z : Fin 1) (d : Fin 128), y = ix3 p z d :=
    ⟨y 0, y 1, y 2, funext fun a => by match a with | ⟨0, _⟩ => rfl | ⟨1, _⟩ => rfl | ⟨2, _⟩ => rfl⟩
  have hp := p.isLt
  have hb : 128 * (t.val / 7) + p.val < 512 := by omega
  rw [oblk_at6 (F := Ideal) c t (sums6 V c) p z d ⟨_, hb⟩ rfl, sums_at6]
  show (cfg6.win 1).cut (grid6.coords t) ((dat6 (F := Ideal) V c).after 1 t) (ix3 p z d) = _
  rw [after6_1]
  refine (acc_eq (by decide) (iblk6 V c) (row6 V c) (tileSum6 V c) t.val t.isLt p z d).trans ?_
  rw [show 64 * (t.val % 7 + 1) = 448 by omega]

/-- The output array ends as the reference's sums: batch row b comes from the last point of batch tile b / 128. -/
theorem final6 (c : Dev nD) :
    (dat6 (F := Ideal) V c).arrAt 1 cfg6.N = Cert.ReferenceIdeal.Read.val_main_v13 (F := Ideal) (V c main_arg6) :=
  (dat6 (F := Ideal) V c).arrAt_eq_of_cover 1 (sums6 V c) (flushed_eq6 V c) fun i => by
    have hN : cfg6.N = 28 := N_6
    have hb : (i 0).val < 512 := (i 0).isLt
    have hz : (i 1).val < 1 := (i 1).isLt
    have hd : (i 2).val < 128 := (i 2).isLt
    have ht : 7 * ((i 0).val / 128) + (7 - 1) < cfg6.N := by omega
    generalize hu : (⟨7 * ((i 0).val / 128) + (7 - 1), ht⟩ : Fin cfg6.N) = u
    have hv : u.val = 7 * ((i 0).val / 128) + (7 - 1) := by rw [← hu]
    refine ⟨u, (by first | exact flush6_1 u | exact (flush6_1 u).mpr (by omega)), ?_⟩
    obtain ⟨hi_b, hi_s, hi_l⟩ := outIdx6 u
    show i ∈ ((View.whole main_v6).slice (win6_1.rect u)).set
    rw [View.set_slice_whole, Rect.mem_set_unit]
    intro a
    match a with
    | ⟨0, _⟩ =>
      show win6_1.index u 0 * 128 ≤ (i 0 : Nat) ∧ (i 0 : Nat) < win6_1.index u 0 * 128 + 128
      rw [hi_b]; omega
    | ⟨1, _⟩ =>
      show win6_1.index u 1 * 1 ≤ (i 1 : Nat) ∧ (i 1 : Nat) < win6_1.index u 1 * 1 + 1
      rw [hi_s]; omega
    | ⟨2, _⟩ =>
      show win6_1.index u 2 * 128 ≤ (i 2 : Nat) ∧ (i 2 : Nat) < win6_1.index u 2 * 128 + 128
      rw [hi_l]; omega

end Cert.KernelIdeal.Val

end
-- ==== Proof.KI.Value7.lean ====
import proofs.«131913_j48773648613703_1_alg».proof.Proof.KI.Region7
import proofs.«131913_j48773648613703_1_alg».proof.Proof.KI.Sum
import proofs.«131913_j48773648613703_1_alg».proof.Proof.Gen.ReferenceIdeal.Read
import Idealize.ShloMosaic.Lib.Pipeline.Value

set_option maxRecDepth 16384

noncomputable section

namespace Cert.KernelIdeal.Val

open Cert.KernelIdeal Cert.KernelIdeal.Gen Cert.KernelIdeal.Frm
open Idealize.ShloMosaic Idealize.ShloMosaic.TcCoe Idealize.ShloMosaic.ValueIdx
open Idealize.ShloMosaic.Pipeline (Dat)
open scoped BigOperators

section AnyValues

variable {F : FTy → Type} [FloatOps F]
variable (V : (c : Dev nD) → (b : Ref sig .tc) → Buf (Elt F) ((c : Thread nD τ).loc b))

abbrev xarr7 (c : Dev nD) : Vec F S512x512x128 .f32 := V c main_arg7

/-- Point t reads batch tile t / L, sequence tile t % L, -/
theorem inIdx7 : ∀ t : Fin cfg7.N, win7_0.index t 0 = t.val / 8 ∧ win7_0.index t 1 = t.val % 8 ∧ win7_0.index t 2 = 0 :=
  (by decide +kernel : ∀ t : Fin grid7.N, win7_0.index t 0 = t.val / 8 ∧ win7_0.index t 1 = t.val % 8 ∧ win7_0.index t 2 = 0)

/-- and writes batch tile t / L. -/
theorem outIdx7 : ∀ t : Fin cfg7.N, win7_1.index t 0 = t.val / 8 ∧ win7_1.index t 1 = 0 ∧ win7_1.index t 2 = 0 :=
  (by decide +kernel : ∀ t : Fin grid7.N, win7_1.index t 0 = t.val / 8 ∧ win7_1.index t 1 = 0 ∧ win7_1.index t 2 = 0)

theorem xblk_at7 (c : Dev nD) (t : Fin cfg7.N) (p : Fin 128) (r : Fin 64) (d : Fin 128) (b : Fin 512) (k : Fin 512)
    (hb : b.val = 128 * (t.val / 8) + p.val) (hk : k.val = 64 * (t.val % 8) + r.val) :
    iblk7 V c t (ix3 p r d) = xarr7 V c (ix3 b k d) := by
  obtain ⟨hi_b, hi_s, hi_l⟩ := inIdx7 t
  unfold iblk7
  rw [View.read_apply]
  show V c main_arg7 _ = V c main_arg7 _
  congr 1
  funext a
  apply Fin.ext
  match a with
  | ⟨0, _⟩ => show win7_0.index t 0 * 128 + 1 * p.val = b.val; rw [hi_b, hb]; omega
  | ⟨1, _⟩ => show win7_0.index t 1 * 64 + 1 * r.val = k.val; rw [hi_s, hk]; omega
  | ⟨2, _⟩ => show win7_0.index t 2 * 128 + 1 * d.val = d.val; rw [hi_l]; omega

theorem oblk_at7 (c : Dev nD) (t : Fin cfg7.N) (G : Vec F S512x1x128 .f32) (p : Fin 128) (z : Fin 1) (d : Fin 128) (b : Fin 512)
    (hb : b.val = 128 * (t.val / 8) + p.val) :
    ((cfg7.win 1).blk t).view.read (Elt F) G (ix3 p z d) = G (ix3 b z d) := by
  obtain ⟨hi_b, hi_s, hi_l⟩ := outIdx7 t
  rw [View.read_apply]
  show G _ = G _
  congr 1
  funext a
  apply Fin.ext
  match a with
  | ⟨0, _⟩ => show win7_1.index t 0 * 128 + 1 * p.val = b.val; rw [hi_b, hb]; omega
  | ⟨1, _⟩ => show win7_1.index t 1 * 1 + 1 * z.val = z.val; rw [hi_s]; omega
  | ⟨2, _⟩ => show win7_1.index t 2 * 128 + 1 * d.val = d.val; rw [hi_l]; omega

end AnyValues

variable (V : (c : Dev nD) → (b : Ref sig .tc) → Buf (Elt Ideal) ((c : Thread nD τ).loc b))

/-- Row b, lane d of the input along the sequence, extended by zero past the array's ends. -/
def row7 (c : Dev nD) (b : ℕ) (d : Fin 128) (k : ℕ) : Ideal .f32 :=
  if h : b < 512 ∧ k < 512 then xarr7 V c (ix3 ⟨b, h.1⟩ ⟨k, h.2⟩ d) else 0

theorem tileSum7 (c : Dev nD) (t : Fin cfg7.N) (p d : Fin 128) :
    ∑ r : Fin 64, iblk7 V c t (ix3 p r d)
      = ∑ r ∈ Finset.range 64, row7 V c (128 * (t.val / 8) + p.val) d (64 * (t.val % 8) + r) := by
  have hN : t.val < 32 := lt_of_lt_of_eq t.isLt (show cfg7.N = 32 from N_7)
  have hp := p.isLt
  rw [Finset.sum_range]
  refine Finset.sum_congr rfl fun r _ => ?_
  have hr := r.isLt
  have hb : 128 * (t.val / 8) + p.val < 512 := by omega
  have hk : 64 * (t.val % 8) + r.val < 512 := by omega
  unfold row7
  rw [dif_pos ⟨hb, hk⟩]
  exact xblk_at7 V c t p r d ⟨_, hb⟩ ⟨_, hk⟩ rfl rfl

/-- The reference's array: every batch row's sum over the whole sequence, kept as a unit axis. -/
abbrev sums7 (c : Dev nD) : Vec Ideal S512x1x128 .f32 :=
  Cert.ReferenceIdeal.Read.val_main_v15 (F := Ideal) (xarr7 V c)

theorem sums_at7 (c : Dev nD) (b : Fin 512) (z : Fin 1) (d : Fin 128) :
    sums7 V c (ix3 b z d) = ∑ k ∈ Finset.range 512, row7 V c b.val d k := by
  unfold sums7
  rw [Cert.ReferenceIdeal.Read.val_main_v15_apply, Cert.ReferenceIdeal.Read.val_main_v14_apply,
    Cert.ReferenceIdeal.Read.val_main_cst_6_apply]
  show Ideal.ofBits .f32 0x00000000#32 + _ = _
  rw [Ideal.ofBits_zero_f32, zero_add, Finset.sum_range]
  refine Finset.sum_congr rfl fun k _ => ?_
  unfold row7
  rw [dif_pos ⟨b.isLt, k.isLt⟩]
  exact congrArg (xarr7 V c) (funext fun a => Fin.ext (by
    match a with | ⟨0, _⟩ => rfl | ⟨1, _⟩ => rfl | ⟨2, _⟩ => rfl))

/-- At a batch tile's last point the running sum covers the whole sequence: the tile is its block of the reference's array. -/
theorem flushed_eq7 (c : Dev nD) (t : Fin cfg7.N) (hf : (cfg7.win 1).flush t = true) :
    (dat7 (F := Ideal) V c).flushed 1 t = ((cfg7.win 1).blk t).view.read (Elt Ideal) (sums7 V c) := by
  have hN : t.val < 32 := lt_of_lt_of_eq t.isLt (show cfg7.N = 32 from N_7)
  have hl : t.val % 8 + 1 = 8 := by
    first
    | omega
    | (have := (flush7_1 t).mp hf; omega)
  funext y
  obtain ⟨p, z, d, rfl⟩ : ∃ (p : Fin 128) (z : Fin 1) (d : Fin 128), y = ix3 p z d :=
    ⟨y 0, y 1, y 2, funext fun a => by match a with | ⟨0, _⟩ => rfl | ⟨1, _⟩ => rfl | ⟨2, _⟩ => rfl⟩
  have hp := p.isLt
  have hb : 128 * (t.val / 8) + p.val < 512 := by omega
  rw [oblk_at7 (F := Ideal) c t (sums7 V c) p z d ⟨_, hb⟩ rfl, sums_at7]
  show (cfg7.win 1).cut (grid7.coords t) ((dat7 (F := Ideal) V c).after 1 t) (ix3 p z d) = _
  rw [after7_1]
  refine (acc_eq (by decide) (iblk7 V c) (row7 V c) (tileSum7 V c) t.val t.isLt p z d).trans ?_
  rw [show 64 * (t.val % 8 + 1) = 512 by omega]

/-- The output array ends as the reference's sums: batch row b comes from the last point of batch tile b / 128. -/
theorem final7 (c : Dev nD) :
    (dat7 (F := Ideal) V c).arrAt 1 cfg7.N = Cert.ReferenceIdeal.Read.val_main_v15 (F := Ideal) (V c main_arg7) :=
  (dat7 (F := Ideal) V c).arrAt_eq_of_cover 1 (sums7 V c) (flushed_eq7 V c) fun i => by
    have hN : cfg7.N = 32 := N_7
    have hb : (i 0).val < 512 := (i 0).isLt
    have hz : (i 1).val < 1 := (i 1).isLt
    have hd : (i 2).val < 128 := (i 2).isLt
    have ht : 8 * ((i 0).val / 128) + (8 - 1) < cfg7.N := by omega
    generalize hu : (⟨8 * ((i 0).val / 128) + (8 - 1), ht⟩ : Fin cfg7.N) = u
    have hv : u.val = 8 * ((i 0).val / 128) + (8 - 1) := by rw [← hu]
    refine ⟨u, (by first | exact flush7_1 u | exact (flush7_1 u).mpr (by omega)), ?_⟩
    obtain ⟨hi_b, hi_s, hi_l⟩ := outIdx7 u
    show i ∈ ((View.whole main_v7).slice (win7_1.rect u)).set
    rw [View.set_slice_whole, Rect.mem_set_unit]
    intro a
    match a with
    | ⟨0, _⟩ =>
      show win7_1.index u 0 * 128 ≤ (i 0 : Nat) ∧ (i 0 : Nat) < win7_1.index u 0 * 128 + 128
      rw [hi_b]; omega
    | ⟨1, _⟩ =>
      show win7_1.index u 1 * 1 ≤ (i 1 : Nat) ∧ (i 1 : Nat) < win7_1.index u 1 * 1 + 1
      rw [hi_s]; omega
    | ⟨2, _⟩ =>
      show win7_1.index u 2 * 128 ≤ (i 2 : Nat) ∧ (i 2 : Nat) < win7_1.index u 2 * 128 + 128
      rw [hi_l]; omega

end Cert.KernelIdeal.Val

end
-- ==== Proof.KI.Result.lean ====
import proofs.«131913_j48773648613703_1_alg».proof.Proof.KI.Run
import proofs.«131913_j48773648613703_1_alg».proof.Proof.KI.Value0
import proofs.«131913_j48773648613703_1_alg».proof.Proof.KI.Value1
import proofs.«131913_j48773648613703_1_alg».proof.Proof.KI.Value2
import proofs.«131913_j48773648613703_1_alg».proof.Proof.KI.Value3
import proofs.«131913_j48773648613703_1_alg».proof.Proof.KI.Value4
import proofs.«131913_j48773648613703_1_alg».proof.Proof.KI.Value5
import proofs.«131913_j48773648613703_1_alg».proof.Proof.KI.Value6
import proofs.«131913_j48773648613703_1_alg».proof.Proof.KI.Value7

noncomputable section

namespace Cert.KernelIdeal.Frm

open Cert.KernelIdeal Cert.KernelIdeal.Gen Cert.KernelIdeal.Val
open Idealize.ShloMosaic Idealize.ShloMosaic.TcCoe Idealize.ShloMosaic.Tactic
open Idealize.SL.Sem

variable (m : (ℓ : Loc nD τ sig) → Buf (Elt Ideal) ℓ) (ρ : Dev nD → PrngReg)

/-- After the last region, region k's result array holds the reference's keepdims sum of x_k. -/
theorem out0 (c : Dev nD) : Wn m 8 c (Proc.devRef .tc main_v0)
    = Cert.ReferenceIdeal.Read.val_main_v1 (F := Ideal) (m ((c : Thread nD τ).loc main_arg0)) :=
  (Wn_arr m c 0 (1 : Fin 2) 8 (by decide) le_rfl).trans (final0 (VL m) c)
theorem out1 (c : Dev nD) : Wn m 8 c (Proc.devRef .tc main_v1)
    = Cert.ReferenceIdeal.Read.val_main_v3 (F := Ideal) (m ((c : Thread nD τ).loc main_arg1)) :=
  (Wn_arr m c 1 (1 : Fin 2) 8 (by decide) le_rfl).trans (final1 (VL m) c)
theorem out2 (c : Dev nD) : Wn m 8 c (Proc.devRef .tc main_v2)
    = Cert.ReferenceIdeal.Read.val_main_v5 (F := Ideal) (m ((c : Thread nD τ).loc main_arg2)) :=
  (Wn_arr m c 2 (1 : Fin 2) 8 (by decide) le_rfl).trans (final2 (VL m) c)
theorem out3 (c : Dev nD) : Wn m 8 c (Proc.devRef .tc main_v3)
    = Cert.ReferenceIdeal.Read.val_main_v7 (F := Ideal) (m ((c : Thread nD τ).loc main_arg3)) :=
  (Wn_arr m c 3 (1 : Fin 2) 8 (by decide) le_rfl).trans (final3 (VL m) c)
theorem out4 (c : Dev nD) : Wn m 8 c (Proc.devRef .tc main_v4)
    = Cert.ReferenceIdeal.Read.val_main_v9 (F := Ideal) (m ((c : Thread nD τ).loc main_arg4)) :=
  (Wn_arr m c 4 (1 : Fin 2) 8 (by decide) le_rfl).trans (final4 (VL m) c)
theorem out5 (c : Dev nD) : Wn m 8 c (Proc.devRef .tc main_v5)
    = Cert.ReferenceIdeal.Read.val_main_v11 (F := Ideal) (m ((c : Thread nD τ).loc main_arg5)) :=
  (Wn_arr m c 5 (1 : Fin 2) 8 (by decide) le_rfl).trans (final5 (VL m) c)
theorem out6 (c : Dev nD) : Wn m 8 c (Proc.devRef .tc main_v6)
    = Cert.ReferenceIdeal.Read.val_main_v13 (F := Ideal) (m ((c : Thread nD τ).loc main_arg6)) :=
  (Wn_arr m c 6 (1 : Fin 2) 8 (by decide) le_rfl).trans (final6 (VL m) c)
theorem out7 (c : Dev nD) : Wn m 8 c (Proc.devRef .tc main_v7)
    = Cert.ReferenceIdeal.Read.val_main_v15 (F := Ideal) (m ((c : Thread nD τ).loc main_arg7)) :=
  (Wn_arr m c 7 (1 : Fin 2) 8 (by decide) le_rfl).trans (final7 (VL m) c)

/-- The kernel's result: the eight sums joined along axis 1. -/
abbrev result (c : Dev nD) : Buf (Elt Ideal) ((c : Thread nD τ).loc main_v8) :=
  concatenate S512x8x128 1 [⟨S512x1x128, Cert.ReferenceIdeal.Read.val_main_v1 (F := Ideal) (m ((c : Thread nD τ).loc main_arg0))⟩,
    ⟨S512x1x128, Cert.ReferenceIdeal.Read.val_main_v3 (F := Ideal) (m ((c : Thread nD τ).loc main_arg1))⟩,
    ⟨S512x1x128, Cert.ReferenceIdeal.Read.val_main_v5 (F := Ideal) (m ((c : Thread nD τ).loc main_arg2))⟩,
    ⟨S512x1x128, Cert.ReferenceIdeal.Read.val_main_v7 (F := Ideal) (m ((c : Thread nD τ).loc main_arg3))⟩,
    ⟨S512x1x128, Cert.ReferenceIdeal.Read.val_main_v9 (F := Ideal) (m ((c : Thread nD τ).loc main_arg4))⟩,
    ⟨S512x1x128, Cert.ReferenceIdeal.Read.val_main_v11 (F := Ideal) (m ((c : Thread nD τ).loc main_arg5))⟩,
    ⟨S512x1x128, Cert.ReferenceIdeal.Read.val_main_v13 (F := Ideal) (m ((c : Thread nD τ).loc main_arg6))⟩,
    ⟨S512x1x128, Cert.ReferenceIdeal.Read.val_main_v15 (F := Ideal) (m ((c : Thread nD τ).loc main_arg7))⟩]
    concatenates_S512x1x128_S512x1x128_S512x1x128_S512x1x128_S512x1x128_S512x1x128_S512x1x128_S512x1x128_S512x8x128_d1

theorem W9_main_v8 (c : Dev nD) : W9 m c (Proc.devRef .tc main_v8) = result m c := by
  unfold result
  rw [← out0 m c, ← out1 m c, ← out2 m c, ← out3 m c, ← out4 m c, ← out5 m c, ← out6 m c, ← out7 m c]
  show StableHlo.after hostOps8 (Wn m 8 c) (Proc.devRef .tc main_v8) = _
  after_results
  rfl

/-- The run with the result named. -/
theorem run_value : θ_run defs (onTc (τ := τ) (main (F := Ideal))) ⟨m, fun _ => 0, ρ⟩ (fun r => ∀ c : Dev nD,
      r.2.mem ((c.tc : Thread nD τ).loc main_v8) = result m c ∧ Kept m r.2.mem c) :=
  (θ_run defs _ _).mono (fun r h c => ⟨(h c _ (mem_uc main_v8 (by decide))).trans (W9_main_v8 m c), kept m r.2.mem h c⟩)
    (run_all m ρ)

end Cert.KernelIdeal.Frm

end
-- ==== Proof.lean ====
/-
  The kernel sums each of eight inputs x_k : f32[512, 64(k+1), 128] over its sequence axis, one pallas_call per
  input, and joins the eight [512, 1, 128] sums along axis 1; the reference takes the same sums with one reduction
  each. Over the extended reals a sum may be taken tile by tile, so both end with (b, k, d) ↦ 0 + Σ_r x_k[b, r, d].
-/
import proofs.«131913_j48773648613703_1_alg».proof.Defs
import proofs.«131913_j48773648613703_1_alg».proof.Proof.Gen.Kernel
import proofs.«131913_j48773648613703_1_alg».proof.Proof.Gen.KernelIdeal
import proofs.«131913_j48773648613703_1_alg».proof.Proof.Gen.ReferenceIdeal
import proofs.«131913_j48773648613703_1_alg».proof.Proof.Gen.ReferenceIdeal.Run
import proofs.«131913_j48773648613703_1_alg».proof.Proof.Gen.ReferenceIdeal.Read
import proofs.«131913_j48773648613703_1_alg».proof.Proof.Gen.Pre_finite_inputs
import proofs.«131913_j48773648613703_1_alg».proof.Proof.K.Run
import proofs.«131913_j48773648613703_1_alg».proof.Proof.KI.Result
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Frm.frame m ρ

theorem frame_ki : Cert.frame_KernelIdeal := fun m ρ _ => Cert.KernelIdeal.Frm.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the concatenate of the eight keepdims sums, taken of arrays that agree. -/
theorem algebraic : Cert.algebraic_KernelIdeal_ReferenceIdeal := by
  intro m ρ m' ρ' _ hagree
  refine ⟨_, Cert.KernelIdeal.Frm.run_value m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2.1, (hagree c).2.2.2.2.2.2.1, (hagree c).2.2.2.2.2.2.2]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
